-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x4x4 : Shape := ⟨4, ![16, 32768, 4, 4]⟩
abbrev S16x32768x8x8 : Shape := ⟨4, ![16, 32768, 8, 8]⟩
abbrev S_ : Shape := ⟨0, ![]⟩

class Facts : Prop where
  bcast_S_S16x32768x4x4 : S_.BroadcastsInDim S16x32768x4x4 (![] : Fin 0 → Fin S16x32768x4x4.rank)
  reducesTo_S16x32768x4x4_S_d0_1_2_3 : S16x32768x4x4.ReducesTo [0, 1, 2, 3] S_
  h_S_ : 0 < S_.numel
  bcast_S_S16x32768x8x8 : S_.BroadcastsInDim S16x32768x8x8 (![] : Fin 0 → Fin S16x32768x8x8.rank)
  reducesTo_S16x32768x8x8_S_d0_1_2_3 : S16x32768x8x8.ReducesTo [0, 1, 2, 3] S_

variable [Facts]

def fn_part1 {F : FTy → Type} [FloatOps F] (main_v13 : IVec S_ 1) (main_v16 : IVec S16x32768x8x8 1) : IVec S_ 1 :=
  let main_c_5 : IVec S_ 1 := constantI S_ 1 1#1
  let main_v17 : IVec S_ 1 := (fun x v => Host.reduce IntOp.andi x v reducesTo_S16x32768x8x8_S_d0_1_2_3 h_S_) main_v16 main_c_5
  let main_v18 : IVec S_ 1 := andi main_v13 main_v17
  main_v18

def fn {F : FTy → Type} [FloatOps F] (main_arg0 : FVec F S16x32768x4x4 .f32) (main_arg1 : FVec F S16x32768x8x8 .f32) (main_arg2 : FVec F S16x32768x4x4 .f32) (main_arg3 : FVec F S16x32768x8x8 .f32) : IVec S_ 1 :=
  let main_v0 : FVec F S16x32768x4x4 .f32 := Host.absf main_arg0
  let main_cst : FVec F S_ .f32 := constant S_ .f32 0x7F800000#32
  let main_v1 : FVec F S16x32768x4x4 .f32 := broadcastInDim S16x32768x4x4 ![] bcast_S_S16x32768x4x4 main_cst
  let main_v2 : IVec S16x32768x4x4 1 := cmpf .olt main_v0 main_v1
  let main_c : IVec S_ 1 := constantI S_ 1 1#1
  let main_v3 : IVec S_ 1 := (fun x v => Host.reduce IntOp.andi x v reducesTo_S16x32768x4x4_S_d0_1_2_3 h_S_) main_v2 main_c
  let main_v4 : FVec F S16x32768x8x8 .f32 := Host.absf main_arg1
  let main_cst_0 : FVec F S_ .f32 := constant S_ .f32 0x7F800000#32
  let main_v5 : FVec F S16x32768x8x8 .f32 := broadcastInDim S16x32768x8x8 ![] bcast_S_S16x32768x8x8 main_cst_0
  let main_v6 : IVec S16x32768x8x8 1 := cmpf .olt main_v4 main_v5
  let main_c_1 : IVec S_ 1 := constantI S_ 1 1#1
  let main_v7 : IVec S_ 1 := (fun x v => Host.reduce IntOp.andi x v reducesTo_S16x32768x8x8_S_d0_1_2_3 h_S_) main_v6 main_c_1
  let main_v8 : IVec S_ 1 := andi main_v3 main_v7
  let main_v9 : FVec F S16x32768x4x4 .f32 := Host.absf main_arg2
  let main_cst_2 : FVec F S_ .f32 := constant S_ .f32 0x7F800000#32
  let main_v10 : FVec F S16x32768x4x4 .f32 := broadcastInDim S16x32768x4x4 ![] bcast_S_S16x32768x4x4 main_cst_2
  let main_v11 : IVec S16x32768x4x4 1 := cmpf .olt main_v9 main_v10
  let main_c_3 : IVec S_ 1 := constantI S_ 1 1#1
  let main_v12 : IVec S_ 1 := (fun x v => Host.reduce IntOp.andi x v reducesTo_S16x32768x4x4_S_d0_1_2_3 h_S_) main_v11 main_c_3
  let main_v13 : IVec S_ 1 := andi main_v8 main_v12
  let main_v14 : FVec F S16x32768x8x8 .f32 := Host.absf main_arg3
  let main_cst_4 : FVec F S_ .f32 := constant S_ .f32 0x7F800000#32
  let main_v15 : FVec F S16x32768x8x8 .f32 := broadcastInDim S16x32768x8x8 ![] bcast_S_S16x32768x8x8 main_cst_4
  let main_v16 : IVec S16x32768x8x8 1 := cmpf .olt main_v14 main_v15
  fn_part1 (F := F) main_v13 main_v16
-- ==== Kernel.lean ====
abbrev S16x32768x4x4 : Shape := ⟨4, ![16, 32768, 4, 4]⟩
abbrev S16x32768x8x8 : Shape := ⟨4, ![16, 32768, 8, 8]⟩
abbrev S16x32768x16 : Shape := ⟨3, ![16, 32768, 16]⟩
abbrev S16x16 : Shape := ⟨2, ![16, 16]⟩
abbrev S8x1024x16 : Shape := ⟨3, ![8, 1024, 16]⟩
abbrev S8x16 : Shape := ⟨2, ![8, 16]⟩
abbrev S8x1024 : Shape := ⟨2, ![8, 1024]⟩
abbrev S8x1024x1 : Shape := ⟨3, ![8, 1024, 1]⟩
abbrev S8 : Shape := ⟨1, ![8]⟩
abbrev S8x1 : Shape := ⟨2, ![8, 1]⟩
abbrev S16x32768x64 : Shape := ⟨3, ![16, 32768, 64]⟩
abbrev S16x64 : Shape := ⟨2, ![16, 64]⟩
abbrev S8x1024x64 : Shape := ⟨3, ![8, 1024, 64]⟩
abbrev S8x64 : Shape := ⟨2, ![8, 64]⟩

abbrev nBuf : Space → Nat
  | .hbm => 12
  | .vmem => 20
  | .smem => 0
  | _ => 0

abbrev bufTy : (tb : Table) → Fin (tcTables nBuf tb) → BufTy
  | .hbm, ⟨0, _⟩ => ⟨S16x32768x4x4, .f32⟩
  | .hbm, ⟨1, _⟩ => ⟨S16x32768x8x8, .f32⟩
  | .hbm, ⟨2, _⟩ => ⟨S16x32768x4x4, .f32⟩
  | .hbm, ⟨3, _⟩ => ⟨S16x32768x8x8, .f32⟩
  | .hbm, ⟨4, _⟩ => ⟨S16x32768x16, .f32⟩
  | .hbm, ⟨5, _⟩ => ⟨S16x16, .f32⟩
  | .hbm, ⟨6, _⟩ => ⟨S16x32768x64, .f32⟩
  | .hbm, ⟨7, _⟩ => ⟨S16x64, .f32⟩
  | .hbm, ⟨8, _⟩ => ⟨S16x32768x16, .f32⟩
  | .hbm, ⟨9, _⟩ => ⟨S16x16, .f32⟩
  | .hbm, ⟨10, _⟩ => ⟨S16x32768x64, .f32⟩
  | .hbm, ⟨11, _⟩ => ⟨S16x64, .f32⟩
  | .local _ .vmem, ⟨0, _⟩ => ⟨S8x1024x16, .f32⟩
  | .local _ .vmem, ⟨1, _⟩ => ⟨S8x1024x16, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S8x1024x64, .f32⟩
  | .local _ .vmem, ⟨6, _⟩ => ⟨S8x1024x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x1024x16, .f32⟩
  | .local _ .vmem, ⟨11, _⟩ => ⟨S8x1024x16, .f32⟩
  | .local _ .vmem, ⟨12, _⟩ => ⟨S8x16, .f32⟩
  | .local _ .vmem, ⟨13, _⟩ => ⟨S8x16, .f32⟩
  | .local _ .vmem, ⟨14, _⟩ => ⟨S8x16, .f32⟩
  | .local _ .vmem, ⟨15, _⟩ => ⟨S8x1024x64, .f32⟩
  | .local _ .vmem, ⟨16, _⟩ => ⟨S8x1024x64, .f32⟩
  | .local _ .vmem, ⟨17, _⟩ => ⟨S8x64, .f32⟩
  | .local _ .vmem, ⟨18, _⟩ => ⟨S8x64, .f32⟩
  | .local _ .vmem, ⟨19, _⟩ => ⟨S8x64, .f32⟩
  | _, _ => ⟨S16x32768x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 32], ![false, false]⟩

def k2_cond2 (i : grid2.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![2, 32], ![false, false]⟩

def k3_cond2 (i : grid3.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

class Facts₀ : Prop where
  shapeCasts_S16x32768x4x4_S16x32768x16 : S16x32768x4x4.ShapeCasts S16x32768x16
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1024x16_S8x1024x16_0_0_0 : ∀ a, (![0, 0, 0] : Fin 3 → Nat) a + S8x1024x16.size a ≤ S8x1024x16.size a
  h_S8x1024x16 : 0 < S8x1024x16.numel
  shapeCasts_S8x1024x16_S8x1024x16 : S8x1024x16.ShapeCasts S8x1024x16
  reduces_S8x1024x16_S8x1024 : S8x1024x16.Reduces [2] S8x1024
  iota_S8x1024x16_d2_w32 : S8x1024x16.Iotas .tc 32 [2]
  shapeCasts_S8x1024_S8x1024x1 : S8x1024.ShapeCasts S8x1024x1
  shapeCasts_S8x1024x1_S8x1024x1 : S8x1024x1.ShapeCasts S8x1024x1
  broadcasts_S8x1024x1_S8x1024x16 : S8x1024x1.Broadcasts S8x1024x16
  natLt_1_32 : 1 < 32
  reduces_S8x1024x16_S8x16 : S8x1024x16.Reduces [1] S8x16
  reduces_S8x16_S8 : S8x16.Reduces [1] S8
  shapeCasts_S8_S8x1 : S8.ShapeCasts S8x1
  broadcasts_S8x1_S8x16 : S8x1.Broadcasts S8x16
  shapeCasts_S16x32768x8x8_S16x32768x64 : S16x32768x8x8.ShapeCasts S16x32768x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1024x64_S8x1024x64_0_0_0 : ∀ a, (![0, 0, 0] : Fin 3 → Nat) a + S8x1024x64.size a ≤ S8x1024x64.size a
  h_S8x1024x64 : 0 < S8x1024x64.numel
  shapeCasts_S8x1024x64_S8x1024x64 : S8x1024x64.ShapeCasts S8x1024x64
  reduces_S8x1024x64_S8x1024 : S8x1024x64.Reduces [2] S8x1024
  iota_S8x1024x64_d2_w32 : S8x1024x64.Iotas .tc 32 [2]
  broadcasts_S8x1024x1_S8x1024x64 : S8x1024x1.Broadcasts S8x1024x64
  reduces_S8x1024x64_S8x64 : S8x1024x64.Reduces [1] S8x64
  reduces_S8x64_S8 : S8x64.Reduces [1] S8
  broadcasts_S8x1_S8x64 : S8x1.Broadcasts S8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x16.size a ≤ S16x32768x16.size a
  hwx0_0 : ∀ i : grid0.Coords, EltTy.bits .f32 = 32 ∨ (Rect.block (s := S16x32768x16) S8x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S16x16.size a
  hwx0_1 : ∀ i : grid0.Coords, EltTy.bits .f32 = 32 ∨ (Rect.block (s := S16x16) S8x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024x64.size a ≤ S16x32768x64.size a
  hwx1_0 : ∀ i : grid1.Coords, EltTy.bits .f32 = 32 ∨ (Rect.block (s := S16x32768x64) S8x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S16x64.size a
  hwx1_1 : ∀ i : grid1.Coords, EltTy.bits .f32 = 32 ∨ (Rect.block (s := S16x64) S8x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1024x16.size a ≤ S16x32768x16.size a
  hwx2_0 : ∀ i : grid2.Coords, EltTy.bits .f32 = 32 ∨ (Rect.block (s := S16x32768x16) S8x1024x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x16.size a ≤ S16x16.size a
  hwx2_1 : ∀ i : grid2.Coords, EltTy.bits .f32 = 32 ∨ (Rect.block (s := S16x16) S8x16.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x1024x64.size a ≤ S16x32768x64.size a
  hwx3_0 : ∀ i : grid3.Coords, EltTy.bits .f32 = 32 ∨ (Rect.block (s := S16x32768x64) S8x1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x64.size a ≤ S16x64.size a
  hwx3_1 : ∀ i : grid3.Coords, EltTy.bits .f32 = 32 ∨ (Rect.block (s := S16x64) S8x64.size (cc3_transform_1 i) (hinb3_1 i)).WholeWords (EltTy.packing .f32)

variable [Facts₀]

abbrev win0_0 : Pipeline.Window sig grid0 :=
  Pipeline.Window.ofSpec (Memref.whole main_v0) S8x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S8x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v4) S8x1024x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

abbrev win3_0 : Pipeline.Window sig grid3 :=
  Pipeline.Window.ofSpec (Memref.whole main_v6) S8x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S16x32768x4x4 : Shape := ⟨4, ![16, 32768, 4, 4]⟩
abbrev S16x32768x8x8 : Shape := ⟨4, ![16, 32768, 8, 8]⟩
abbrev S_ : Shape := ⟨0, ![]⟩
abbrev S16x32768 : Shape := ⟨2, ![16, 32768]⟩
abbrev S16 : Shape := ⟨1, ![16]⟩
abbrev S16x32768x1 : Shape := ⟨3, ![16, 32768, 1]⟩
abbrev S1x1x16 : Shape := ⟨3, ![1, 1, 16]⟩
abbrev S16x32768x16 : Shape := ⟨3, ![16, 32768, 16]⟩
abbrev S16x16 : Shape := ⟨2, ![16, 16]⟩
abbrev S16x1 : Shape := ⟨2, ![16, 1]⟩
abbrev S64 : Shape := ⟨1, ![64]⟩
abbrev S1x1x64 : Shape := ⟨3, ![1, 1, 64]⟩
abbrev S16x32768x64 : Shape := ⟨3, ![16, 32768, 64]⟩
abbrev S16x64 : Shape := ⟨2, ![16, 64]⟩

abbrev nBuf : Space → Nat
  | .hbm => 88
  | .vmem => 0
  | .smem => 0
  | _ => 0

abbrev bufTy : (tb : Table) → Fin (tcTables nBuf tb) → BufTy
  | .hbm, ⟨0, _⟩ => ⟨S16x32768x4x4, .f32⟩
  | .hbm, ⟨1, _⟩ => ⟨S16x32768x8x8, .f32⟩
  | .hbm, ⟨2, _⟩ => ⟨S16x32768x4x4, .f32⟩
  | .hbm, ⟨3, _⟩ => ⟨S16x32768x8x8, .f32⟩
  | .hbm, ⟨4, _⟩ => ⟨S_, .f32⟩
  | .hbm, ⟨5, _⟩ => ⟨S16x32768, .f32⟩
  | .hbm, ⟨6, _⟩ => ⟨S16x32768, .i32⟩
  | .hbm, ⟨7, _⟩ => ⟨S16, .i32⟩
  | .hbm, ⟨8, _⟩ => ⟨S16x32768x1, .i32⟩
  | .hbm, ⟨9, _⟩ => ⟨S1x1x16, .i32⟩
  | .hbm, ⟨10, _⟩ => ⟨S16x32768x16, .i32⟩
  | .hbm, ⟨11, _⟩ => ⟨S16x32768x16, .i32⟩
  | .hbm, ⟨12, _⟩ => ⟨S16x32768x16, .i1⟩
  | .hbm, ⟨13, _⟩ => ⟨S16x32768x16, .i32⟩
  | .hbm, ⟨14, _⟩ => ⟨S_, .i32⟩
  | .hbm, ⟨15, _⟩ => ⟨S16x16, .i32⟩
  | .hbm, ⟨16, _⟩ => ⟨S16x16, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S16x16, .f32⟩
  | .hbm, ⟨24, _⟩ => ⟨S16x16, .f32⟩
  | .hbm, ⟨25, _⟩ => ⟨S_, .f32⟩
  | .hbm, ⟨26, _⟩ => ⟨S16x32768, .f32⟩
  | .hbm, ⟨27, _⟩ => ⟨S16x32768, .i32⟩
  | .hbm, ⟨28, _⟩ => ⟨S64, .i32⟩
  | .hbm, ⟨29, _⟩ => ⟨S16x32768x1, .i32⟩
  | .hbm, ⟨30, _⟩ => ⟨S1x1x64, .i32⟩
  | .hbm, ⟨31, _⟩ => ⟨S16x32768x64, .i32⟩
  | .hbm, ⟨32, _⟩ => ⟨S16x32768x64, .i32⟩
  | .hbm, ⟨33, _⟩ => ⟨S16x32768x64, .i1⟩
  | .hbm, ⟨34, _⟩ => ⟨S16x32768x64, .i32⟩
  | .hbm, ⟨35, _⟩ => ⟨S_, .i32⟩
  | .hbm, ⟨36, _⟩ => ⟨S16x64, .i32⟩
  | .hbm, ⟨37, _⟩ => ⟨S16x64, .f32⟩
  | .hbm, ⟨38, _⟩ => ⟨S_, .f32⟩
  | .hbm, ⟨39, _⟩ => ⟨S16x64, .f32⟩
  | .hbm, ⟨40, _⟩ => ⟨S16x64, .f32⟩
  | .hbm, ⟨41, _⟩ => ⟨S_, .f32⟩
  | .hbm, ⟨42, _⟩ => ⟨S16, .f32⟩
  | .hbm, ⟨43, _⟩ => ⟨S16x1, .f32⟩
  | .hbm, ⟨44, _⟩ => ⟨S16x64, .f32⟩
  | .hbm, ⟨45, _⟩ => ⟨S16x64, .f32⟩
  | .hbm, ⟨46, _⟩ => ⟨S_, .f32⟩
  | .hbm, ⟨47, _⟩ => ⟨S16x32768, .f32⟩
  | .hbm, ⟨48, _⟩ => ⟨S16x32768, .i32⟩
  | .hbm, ⟨49, _⟩ => ⟨S16, .i32⟩
  | .hbm, ⟨50, _⟩ => ⟨S16x32768x1, .i32⟩
  | .hbm, ⟨51, _⟩ => ⟨S1x1x16, .i32⟩
  | .hbm, ⟨52, _⟩ => ⟨S16x32768x16, .i32⟩
  | .hbm, ⟨53, _⟩ => ⟨S16x32768x16, .i32⟩
  | .hbm, ⟨54, _⟩ => ⟨S16x32768x16, .i1⟩
  | .hbm, ⟨55, _⟩ => ⟨S16x32768x16, .i32⟩
  | .hbm, ⟨56, _⟩ => ⟨S_, .i32⟩
  | .hbm, ⟨57, _⟩ => ⟨S16x16, .i32⟩
  | .hbm, ⟨58, _⟩ => ⟨S16x16, .f32⟩
  | .hbm, ⟨59, _⟩ => ⟨S_, .f32⟩
  | .hbm, ⟨60, _⟩ => ⟨S16x16, .f32⟩
  | .hbm, ⟨61, _⟩ => ⟨S16x16, .f32⟩
  | .hbm, ⟨62, _⟩ => ⟨S_, .f32⟩
  | .hbm, ⟨63, _⟩ => ⟨S16, .f32⟩
  | .hbm, ⟨64, _⟩ => ⟨S16x1, .f32⟩
  | .hbm, ⟨65, _⟩ => ⟨S16x16, .f32⟩
  | .hbm, ⟨66, _⟩ => ⟨S16x16, .f32⟩
  | .hbm, ⟨67, _⟩ => ⟨S_, .f32⟩
  | .hbm, ⟨68, _⟩ => ⟨S16x32768, .f32⟩
  | .hbm, ⟨69, _⟩ => ⟨S16x32768, .i32⟩
  | .hbm, ⟨70, _⟩ => ⟨S64, .i32⟩
  | .hbm, ⟨71, _⟩ => ⟨S16x32768x1, .i32⟩
  | .hbm, ⟨72, _⟩ => ⟨S1x1x64, .i32⟩
  | .hbm, ⟨73, _⟩ => ⟨S16x32768x64, .i32⟩
  | .hbm, ⟨74, _⟩ => ⟨S16x32768x64, .i32⟩
  | .hbm, ⟨75, _⟩ => ⟨S16x32768x64, .i1⟩
  | .hbm, ⟨76, _⟩ => ⟨S16x32768x64, .i32⟩
  | .hbm, ⟨77, _⟩ => ⟨S_, .i32⟩
  | .hbm, ⟨78, _⟩ => ⟨S16x64, .i32⟩
  | .hbm, ⟨79, _⟩ => ⟨S16x64, .f32⟩
  | .hbm, ⟨80, _⟩ => ⟨S_, .f32⟩
  | .hbm, ⟨81, _⟩ => ⟨S16x64, .f32⟩
  | .hbm, ⟨82, _⟩ => ⟨S16x64, .f32⟩
  | .hbm, ⟨83, _⟩ => ⟨S_, .f32⟩
  | .hbm, ⟨84, _⟩ => ⟨S16, .f32⟩
  | .hbm, ⟨85, _⟩ => ⟨S16x1, .f32⟩
  | .hbm, ⟨86, _⟩ => ⟨S16x64, .f32⟩
  | .hbm, ⟨87, _⟩ => ⟨S16x64, .f32⟩
  | _, _ => ⟨S16x32768x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  reducesTo_S16x32768x4x4_S16x32768_d2_3 : S16x32768x4x4.ReducesTo [2, 3] S16x32768
  h_S_ : 0 < S_.numel
  bcast_S16x32768_S16x32768x1_0_1 : S16x32768.BroadcastsInDim S16x32768x1 (![0, 1] : Fin 2 → Fin S16x32768x1.rank)
  bcast_S16_S1x1x16_2 : S16.BroadcastsInDim S1x1x16 (![2] : Fin 1 → Fin S1x1x16.rank)
  bcast_S16x32768x1_S16x32768x16_0_1_2 : S16x32768x1.BroadcastsInDim S16x32768x16 (![0, 1, 2] : Fin 3 → Fin S16x32768x16.rank)
  bcast_S1x1x16_S16x32768x16_0_1_2 : S1x1x16.BroadcastsInDim S16x32768x16 (![0, 1, 2] : Fin 3 → Fin S16x32768x16.rank)
  natLt_1_32 : 1 < 32
  reducesTo_S16x32768x16_S16x16_d1 : S16x32768x16.ReducesTo [1] S16x16
  bcast_S_S16x16 : S_.BroadcastsInDim S16x16 (![] : Fin 0 → Fin S16x16.rank)
  reducesTo_S16x16_S16_d1 : S16x16.ReducesTo [1] S16
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  reducesTo_S16x32768x8x8_S16x32768_d2_3 : S16x32768x8x8.ReducesTo [2, 3] S16x32768
  bcast_S64_S1x1x64_2 : S64.BroadcastsInDim S1x1x64 (![2] : Fin 1 → Fin S1x1x64.rank)
  bcast_S16x32768x1_S16x32768x64_0_1_2 : S16x32768x1.BroadcastsInDim S16x32768x64 (![0, 1, 2] : Fin 3 → Fin S16x32768x64.rank)
  bcast_S1x1x64_S16x32768x64_0_1_2 : S1x1x64.BroadcastsInDim S16x32768x64 (![0, 1, 2] : Fin 3 → Fin S16x32768x64.rank)
  reducesTo_S16x32768x64_S16x64_d1 : S16x32768x64.ReducesTo [1] S16x64
  bcast_S_S16x64 : S_.BroadcastsInDim S16x64 (![] : Fin 0 → Fin S16x64.rank)
  reducesTo_S16x64_S16_d1 : S16x64.ReducesTo [1] S16
  bcast_S16x1_S16x64_0_1 : S16x1.BroadcastsInDim S16x64 (![0, 1] : Fin 2 → Fin S16x64.rank)

variable [Facts₀]

class Facts : Prop extends Facts₀ where

variable [Facts]
-- ==== Proof.Kernel.H16.Runs.lean ====
import proofs.«135897_j31885837205965_1_alg».proof.Proof.Gen.Kernel.Launch
import proofs.«135897_j31885837205965_1_alg».proof.Proof.Gen.Kernel.Skeleton
import proofs.«135897_j31885837205965_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.H16

open Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

/-- The body resets its accumulator at the first of a batch block's 32 tiles and stores the output at the last. -/
abbrev cond_0 (i : grid0.Coords) : Prop := (Scalar.cmpi .ne (Scalar.extui (Scalar.cmpi .eq (BitVec.ofNat 32 (i 1).val) 0#32)) 0#32) = 1#1
abbrev cond_1 (i : grid0.Coords) : Prop := k0_cond2 i = 1#1

variable (c : Dev nD) (i : grid0.Coords) (arg2 : Memref sig .tc .vmem S8x1024x16 .f32) (harg2 : arg2.IsWhole)
  (arg3 : Memref sig .tc .vmem S8x16 .f32) (harg3 : arg3.IsWhole) (arg4 : Memref sig .tc .vmem S8x16 .f32) (harg4 : arg4.IsWhole)
  (x0 : Vec F S8x1024x16 .f32) (xs0 : Vec F S8x16 .f32)

/-- The body run from the input buffer at `x0`, the output buffer at `A3` and the accumulator at `A4`: it hands the
    input back, leaves the output buffer at `B3` and the pieces `LS0` in the accumulator. -/
abbrev Runs (A3 A4 B3 : sProp 𝕄) (LS0 : List (View.Piece (Elt F) S8x16 .f32)) : Prop :=
  ∀ (E : Set ℕ) (K : PUnit → sProp 𝕄),
    iprop(owns (c : Thread nD τ) arg2 fullShare x0 ∗ A3 ∗ A4
        ∗ (iprop(owns (c : Thread nD τ) arg2 fullShare x0 ∗ B3 ∗ (∃ f, arg4.view.loc (c : Thread nD τ) ↦[arg4.view.set]{fullShare} arg4.view.writes (Elt F) f LS0)) -∗ K ⟨⟩))
      ⊢ wp frame (wpE (defs₀ (F := F)) Variants.none c none) E (cc0__hist_kernel i arg2 harg2 arg3 harg3 arg4 harg4) K

set_option maxHeartbeats 1000000 in
/-- First tile of a batch block: the accumulator is reset, then the tile's counts are added; the output buffer is not touched. -/
def kernelRun_A (hc0 : cond_0 i) (hc1 : ¬cond_1 i) : { LS0 : List (View.Piece (Elt F) S8x16 .f32) //
    ∀ A3 : sProp 𝕄, Runs c i arg2 harg2 arg3 harg3 arg4 harg4 x0 A3 iprop(∃ d, owns (c : Thread nD τ) arg4 fullShare d) A3 LS0 } := by
  refine ⟨?_, fun A3 E K => ?run⟩
  case run =>
    simp only [cc0__hist_kernel_eq_skeleton]; unfold cc0__hist_kernel_skel
    unfold owns
    iintro ⟨⟨%f0, %hf0, H0⟩, H1, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Middle tile: the tile's counts are added to what the tile before left. -/
def kernelRun_B (hc0 : ¬cond_0 i) (hc1 : ¬cond_1 i) : { LS0 : List (View.Piece (Elt F) S8x16 .f32) //
    ∀ A3 : sProp 𝕄, Runs c i arg2 harg2 arg3 harg3 arg4 harg4 x0 A3 (owns (c : Thread nD τ) arg4 fullShare xs0) A3 LS0 } := by
  refine ⟨?_, fun A3 E K => ?run⟩
  case run =>
    simp only [cc0__hist_kernel_eq_skeleton]; unfold cc0__hist_kernel_skel
    unfold owns
    iintro ⟨⟨%f0, %hf0, H0⟩, H1, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Last tile: the counts are added, then the normalised rows are stored into the output buffer (pieces `L1`). -/
def kernelRun_C (hc0 : ¬cond_0 i) (hc1 : cond_1 i) : Σ' (L1 : List (View.Piece (Elt F) S8x16 .f32)), { LS0 : List (View.Piece (Elt F) S8x16 .f32) //
    Runs c i arg2 harg2 arg3 harg3 arg4 harg4 x0 iprop(∃ d, owns (c : Thread nD τ) arg3 fullShare d) (owns (c : Thread nD τ) arg4 fullShare xs0)
      iprop(∃ f, arg3.view.loc (c : Thread nD τ) ↦[arg3.view.set]{fullShare} arg3.view.writes (Elt F) f L1) LS0 } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

variable (hp : cond_0 i) (hn : ¬cond_0 i) (hq : cond_1 i) (hm : ¬cond_1 i)

/-- Each case's pieces tile their buffer. -/
theorem tiled_A : View.Piece.tiledL (kernelRun_A c i arg2 harg2 arg3 harg3 arg4 harg4 x0 hp hm).1 S8x16.size = true := by sl_kernel_rfl
theorem tiled_B : View.Piece.tiledL (kernelRun_B c i arg2 harg2 arg3 harg3 arg4 harg4 x0 xs0 hn hm).1 S8x16.size = true := by sl_kernel_rfl
theorem tiled_C : View.Piece.tiledL (kernelRun_C c i arg2 harg2 arg3 harg3 arg4 harg4 x0 xs0 hn hq).2.1 S8x16.size = true := by sl_kernel_rfl
theorem tiled_C_1 : View.Piece.tiledL (kernelRun_C c i arg2 harg2 arg3 harg3 arg4 harg4 x0 xs0 hn hq).1 S8x16.size = true := by sl_kernel_rfl

end Cert.Kernel.H16

end
-- ==== Proof.Kernel.R0.Base.lean ====
import proofs.«135897_j31885837205965_1_alg».proof.Proof.Kernel.H16.Runs

noncomputable section

namespace Cert.Kernel.R0

open Cert.Kernel.Gen Cert.Kernel.H16
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg0.N, cond_0 (grid0.coords t) ↔ t.val % 32 = 0 := by decide +kernel
theorem hcond_1 : ∀ t : Fin cfg0.N, cond_1 (grid0.coords t) ↔ t.val % 32 = 31 := by decide +kernel

theorem liveAt_0 : ∀ t : Fin cfg0.N, cfg0.idle 0 (grid0.coords t) = false := by decide +kernel
theorem idleAt_1 : ∀ t : Fin cfg0.N, ¬t.val % 32 = 31 → cfg0.idle 1 (grid0.coords t) = true := by decide +kernel
theorem noFlush_1 : ∀ t : Fin cfg0.N, ¬t.val % 32 = 31 → (cfg0.win 1).flush t = false := by decide +kernel
theorem liveAt_1 : ∀ t : Fin cfg0.N, t.val % 32 = 31 → cfg0.idle 1 (grid0.coords t) = false := by decide +kernel

abbrev VO_1 : View sig .tc .vmem S8x16 .f32 := (Memref.whole cc0_stg1_0 : Memref sig .tc .vmem S8x16 .f32).view
abbrev ms_0 (t : Fin cfg0.N) : Memref sig .tc .vmem S8x1024x16 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x16 .f32 := win0_1.stage (cfg0.slots t 1)
abbrev hs_1 (t : Fin cfg0.N) : (ms_1 t).IsWhole := hstage0_1 ((cfg0.slots t 1).cast nbuf0_1)
abbrev scM : Memref sig .tc .vmem S8x16 .f32 := Memref.whole cc0_scratch0
abbrev VS : View sig .tc .vmem S8x16 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant is the accumulator at some contents beside the rest. -/
theorem PhiA_eq (c : Dev nD) : (Pipeline.ΦA spec0 c : sProp 𝕄) = iprop(iprop((∃ d, owns (c : Thread nD τ) scM fullShare d) ∗ Pipeline.scopedRestBut (Ix := Unit) (Name := ℕ) (U := UR sig nD τ) (Lvl := ℕ) (Val := Elt F) spec0 c [cc0_scratch0]) ∗ ∃ r, prngReg c r) := by
  unfold Pipeline.ΦA; rw [Pipeline.scopedRest_split_of_list spec0 c [cc0_scratch0] (by decide) (by decide)]; simp only [scM, owns_whole]; rfl

end Cert.Kernel.R0

end
-- ==== Proof.LibCarry.lean ====
import Idealize.ShloMosaic.Lib.Ring

noncomputable section

namespace Idealize.ShloMosaic.Ring

open Idealize.SL
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [∀ e, Nonempty (Val e)]
local notation "𝕄L" => MT nD τ sig Ix Val Name U Lvl

variable {c : Thread nD τ} {cs : Space} {s2 s3 s4 : Shape} {e : EltTy} {q : PosShare TreeShare}
  {a2 : Memref sig c.2.kind cs s2 e} {a3 : Memref sig c.2.kind cs s3 e} {a4 : Memref sig c.2.kind cs s4 e}
  {κ' : Kind} {sp' : Space} {x0 : s2.Idx → Val e} {L : List (View.Piece Val s4 e)}

/-- A body that leaves its input buffer and any frame `out` as found and the pieces `L` in a carried buffer, run under
    an invariant `inv` that yields the carried buffer as the run wants it beside a remainder `rem`: the carried buffer
    ends at the pieces read back, everything else passes through. -/
theorem wp_keep (WP : (PUnit.{1} → BI.sProp 𝕄L) → BI.sProp 𝕄L) {inv acc4 rem owe out : BI.sProp 𝕄L} {D0 : Type}
    (v' : View sig κ' sp' s4 e) (size : Fin s4.rank → Nat) (hP : inv ⊢ iprop(acc4 ∗ rem))
    (hrun : ∀ K : PUnit.{1} → BI.sProp 𝕄L,
      (iprop(owns c a2 q x0 ∗ out ∗ acc4 ∗ (iprop(owns c a2 q x0 ∗ out
        ∗ (∃ f, a4.view.loc c ↦[a4.view.set]{q} a4.view.writes Val f L)) -∗ K ⟨⟩)) : BI.sProp 𝕄L) ⊢ WP K)
    (hL : View.Piece.tiledL L size = true) :
    iprop(inv ∗ owe ∗ (∃ _ : D0, (owns c a2 q x0 : BI.sProp 𝕄L)) ∗ out)
      ⊢ WP fun _ => iprop(iprop((owns c a4 q (v'.read Val (v'.writes Val v'.junk L)) : BI.sProp 𝕄L) ∗ rem) ∗ owe
          ∗ (owns c a2 q x0 : BI.sProp 𝕄L) ∗ out) := by
  iintro ⟨HP, HO, ⟨%d0, H0⟩, H1⟩
  ihave HP' := hP $$ HP
  icases HP' with ⟨H4, HR⟩
  iapply (hrun _)
  isplitl [H0]; · iexact H0
  isplitl [H1]; · iexact H1
  isplitl [H4]; · iexact H4
  iintro ⟨H0, H1, ⟨%f, H4⟩⟩
  isplitl [H4 HR]
  · isplitl [H4]
    · ihave H' := (owns_of_writes_tiledL v' size) $$ H4; iapply H'; ipureintro; exact hL
    iexact HR
  isplitl [HO]; · iexact HO
  isplitl [H0]; · iexact H0
  iexact H1

variable {κ₁ : Kind} {sp₁ : Space} {L1 : List (View.Piece Val s3 e)}

/-- The same for a body that also overwrites the output buffer whole with the pieces `L1`. -/
theorem wp_store (WP : (PUnit.{1} → BI.sProp 𝕄L) → BI.sProp 𝕄L) {acc4 rem owe : BI.sProp 𝕄L} {D0 D1 : Type}
    {y : D1 → s3.Idx → Val e} (v' : View sig κ' sp' s4 e) (size : Fin s4.rank → Nat) (v₁ : View sig κ₁ sp₁ s3 e) (size₁ : Fin s3.rank → Nat)
    (hrun : ∀ (K : PUnit.{1} → BI.sProp 𝕄L),
      (iprop(owns c a2 q x0 ∗ (∃ d, owns c a3 q d) ∗ acc4 ∗ (iprop(owns c a2 q x0
        ∗ (∃ f, a3.view.loc c ↦[a3.view.set]{q} a3.view.writes Val f L1)
        ∗ (∃ f, a4.view.loc c ↦[a4.view.set]{q} a4.view.writes Val f L)) -∗ K ⟨⟩)) : BI.sProp 𝕄L) ⊢ WP K)
    (hL : View.Piece.tiledL L size = true) (hL1 : View.Piece.tiledL L1 size₁ = true) :
    iprop(iprop(acc4 ∗ rem) ∗ owe ∗ (∃ _ : D0, (owns c a2 q x0 : BI.sProp 𝕄L)) ∗ (∃ d : D1, (owns c a3 q (y d) : BI.sProp 𝕄L)))
      ⊢ WP fun _ => iprop(iprop((owns c a4 q (v'.read Val (v'.writes Val v'.junk L)) : BI.sProp 𝕄L) ∗ rem) ∗ owe ∗ (owns c a2 q x0 : BI.sProp 𝕄L)
          ∗ (owns c a3 q (v₁.read Val (v₁.writes Val v₁.junk L1)) : BI.sProp 𝕄L)) := by
  iintro ⟨⟨H4, HR⟩, HO, ⟨%d0, H0⟩, ⟨%d1, H1⟩⟩
  iapply (hrun _)
  isplitl [H0]; · iexact H0
  isplitl [H1]; · iexists _; iexact H1
  isplitl [H4]; · iexact H4
  iintro ⟨H0, ⟨%f1, H1⟩, ⟨%f, H4⟩⟩
  isplitl [H4 HR]
  · isplitl [H4]
    · ihave H' := (owns_of_writes_tiledL v' size) $$ H4; iapply H'; ipureintro; exact hL
    iexact HR
  isplitl [HO]; · iexact HO
  isplitl [H0]; · iexact H0
  ihave H' := (owns_of_writes_tiledL v₁ size₁) $$ H1; iapply H'; ipureintro; exact hL1

end Idealize.ShloMosaic.Ring

end
-- ==== Proof.Kernel.R0.Frame.lean ====
import proofs.«135897_j31885837205965_1_alg».proof.Proof.Kernel.R0.Base
import proofs.«135897_j31885837205965_1_alg».proof.Proof.LibCarry

noncomputable section

namespace Cert.Kernel.R0

open Cert.Kernel.Gen Cert.Kernel.H16
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- The three runs at point `t`, from the input's block. -/
abbrev rA (h0 : t.val % 32 = 0) :=
  kernelRun_A c (grid0.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x16 .f32) :=
  kernelRun_B c (grid0.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x16 .f32) :=
  kernelRun_C c (grid0.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x16 .f32)) : Vec F S8x16 .f32 := VS.read (Elt F) (VS.writes (Elt F) VS.junk L)

/-- The accumulator after the body at position `n`, over what the position before left. -/
def accNext (n : ℕ) (prev : Vec F S8x16 .f32) : Vec F S8x16 .f32 :=
  if hn : n < cfg0.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x16 .f32
  | 0 => accNext V c 0 (back [])
  | n + 1 => accNext V c (n + 1) (accAt n)

abbrev accPrev : Vec F S8x16 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x16 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec0 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg0 c where
  A w := V c (Pipeline.arrRef spec0 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec0 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt0 t) (fun _ =>
        iprop((dat V c).Φ t.succ ∗ (dat V c).owesAt () t.succ ∗ (dat V c).leavesExact 0 t ∗ (dat V c).leavesExact 1 t)) := by
  unfold bodyAt0
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x16.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x16.size VO_1 S8x16.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x16.size .rfl (fun K => (rB V c t h0 h1 _).2 _ Set.univ K) (tiled_B ..)

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := .rfl

/-- After the last point the accumulator's contents are forgotten. -/
theorem hout : (dat V c).Φ (Fin.last cfg0.N) ⊢ Pipeline.ΦA spec0 c := by
  rw [PhiA_eq]
  refine (PhiS_some V c (Fin.last cfg0.N).val).trans ?_
  iintro ⟨H, Ho, Hg⟩
  isplitl [H Ho]
  · isplitl [H]; · iexact H
    iexact Ho
  iexact Hg

end Cert.Kernel.R0

end
-- ==== Proof.Kernel.H64.Runs.lean ====
import proofs.«135897_j31885837205965_1_alg».proof.Proof.Gen.Kernel.Launch
import proofs.«135897_j31885837205965_1_alg».proof.Proof.Gen.Kernel.Skeleton
import proofs.«135897_j31885837205965_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.H64

open Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

/-- The body resets its accumulator at the first of a batch block's 32 tiles and stores the output at the last. -/
abbrev cond_0 (i : grid1.Coords) : Prop := (Scalar.cmpi .ne (Scalar.extui (Scalar.cmpi .eq (BitVec.ofNat 32 (i 1).val) 0#32)) 0#32) = 1#1
abbrev cond_1 (i : grid1.Coords) : Prop := k1_cond2 i = 1#1

variable (c : Dev nD) (i : grid1.Coords) (arg2 : Memref sig .tc .vmem S8x1024x64 .f32) (harg2 : arg2.IsWhole)
  (arg3 : Memref sig .tc .vmem S8x64 .f32) (harg3 : arg3.IsWhole) (arg4 : Memref sig .tc .vmem S8x64 .f32) (harg4 : arg4.IsWhole)
  (x0 : Vec F S8x1024x64 .f32) (xs0 : Vec F S8x64 .f32)

/-- The body run from the input buffer at `x0`, the output buffer at `A3` and the accumulator at `A4`: it hands the
    input back, leaves the output buffer at `B3` and the pieces `LS0` in the accumulator. -/
abbrev Runs (A3 A4 B3 : sProp 𝕄) (LS0 : List (View.Piece (Elt F) S8x64 .f32)) : Prop :=
  ∀ (E : Set ℕ) (K : PUnit → sProp 𝕄),
    iprop(owns (c : Thread nD τ) arg2 fullShare x0 ∗ A3 ∗ A4
        ∗ (iprop(owns (c : Thread nD τ) arg2 fullShare x0 ∗ B3 ∗ (∃ f, arg4.view.loc (c : Thread nD τ) ↦[arg4.view.set]{fullShare} arg4.view.writes (Elt F) f LS0)) -∗ K ⟨⟩))
      ⊢ wp frame (wpE (defs₀ (F := F)) Variants.none c none) E (cc1__hist_kernel i arg2 harg2 arg3 harg3 arg4 harg4) K

set_option maxHeartbeats 1000000 in
/-- First tile of a batch block: the accumulator is reset, then the tile's counts are added; the output buffer is not touched. -/
def kernelRun_A (hc0 : cond_0 i) (hc1 : ¬cond_1 i) : { LS0 : List (View.Piece (Elt F) S8x64 .f32) //
    ∀ A3 : sProp 𝕄, Runs c i arg2 harg2 arg3 harg3 arg4 harg4 x0 A3 iprop(∃ d, owns (c : Thread nD τ) arg4 fullShare d) A3 LS0 } := by
  refine ⟨?_, fun A3 E K => ?run⟩
  case run =>
    simp only [cc1__hist_kernel_eq_skeleton]; unfold cc1__hist_kernel_skel
    unfold owns
    iintro ⟨⟨%f0, %hf0, H0⟩, H1, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Middle tile: the tile's counts are added to what the tile before left. -/
def kernelRun_B (hc0 : ¬cond_0 i) (hc1 : ¬cond_1 i) : { LS0 : List (View.Piece (Elt F) S8x64 .f32) //
    ∀ A3 : sProp 𝕄, Runs c i arg2 harg2 arg3 harg3 arg4 harg4 x0 A3 (owns (c : Thread nD τ) arg4 fullShare xs0) A3 LS0 } := by
  refine ⟨?_, fun A3 E K => ?run⟩
  case run =>
    simp only [cc1__hist_kernel_eq_skeleton]; unfold cc1__hist_kernel_skel
    unfold owns
    iintro ⟨⟨%f0, %hf0, H0⟩, H1, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Last tile: the counts are added, then the normalised rows are stored into the output buffer (pieces `L1`). -/
def kernelRun_C (hc0 : ¬cond_0 i) (hc1 : cond_1 i) : Σ' (L1 : List (View.Piece (Elt F) S8x64 .f32)), { LS0 : List (View.Piece (Elt F) S8x64 .f32) //
    Runs c i arg2 harg2 arg3 harg3 arg4 harg4 x0 iprop(∃ d, owns (c : Thread nD τ) arg3 fullShare d) (owns (c : Thread nD τ) arg4 fullShare xs0)
      iprop(∃ f, arg3.view.loc (c : Thread nD τ) ↦[arg3.view.set]{fullShare} arg3.view.writes (Elt F) f L1) LS0 } := by
  refine ⟨?_, ?_, fun E K => ?run⟩
  case run =>
    simp only [cc1__hist_kernel_eq_skeleton]; unfold cc1__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

variable (hp : cond_0 i) (hn : ¬cond_0 i) (hq : cond_1 i) (hm : ¬cond_1 i)

/-- Each case's pieces tile their buffer. -/
theorem tiled_A : View.Piece.tiledL (kernelRun_A c i arg2 harg2 arg3 harg3 arg4 harg4 x0 hp hm).1 S8x64.size = true := by sl_kernel_rfl
theorem tiled_B : View.Piece.tiledL (kernelRun_B c i arg2 harg2 arg3 harg3 arg4 harg4 x0 xs0 hn hm).1 S8x64.size = true := by sl_kernel_rfl
theorem tiled_C : View.Piece.tiledL (kernelRun_C c i arg2 harg2 arg3 harg3 arg4 harg4 x0 xs0 hn hq).2.1 S8x64.size = true := by sl_kernel_rfl
theorem tiled_C_1 : View.Piece.tiledL (kernelRun_C c i arg2 harg2 arg3 harg3 arg4 harg4 x0 xs0 hn hq).1 S8x64.size = true := by sl_kernel_rfl

end Cert.Kernel.H64

end
-- ==== Proof.Kernel.R1.Base.lean ====
import proofs.«135897_j31885837205965_1_alg».proof.Proof.Kernel.H64.Runs

noncomputable section

namespace Cert.Kernel.R1

open Cert.Kernel.Gen Cert.Kernel.H64
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg1.N, cond_0 (grid1.coords t) ↔ t.val % 32 = 0 := by decide +kernel
theorem hcond_1 : ∀ t : Fin cfg1.N, cond_1 (grid1.coords t) ↔ t.val % 32 = 31 := by decide +kernel

theorem liveAt_0 : ∀ t : Fin cfg1.N, cfg1.idle 0 (grid1.coords t) = false := by decide +kernel
theorem idleAt_1 : ∀ t : Fin cfg1.N, ¬t.val % 32 = 31 → cfg1.idle 1 (grid1.coords t) = true := by decide +kernel
theorem noFlush_1 : ∀ t : Fin cfg1.N, ¬t.val % 32 = 31 → (cfg1.win 1).flush t = false := by decide +kernel
theorem liveAt_1 : ∀ t : Fin cfg1.N, t.val % 32 = 31 → cfg1.idle 1 (grid1.coords t) = false := by decide +kernel

abbrev VO_1 : View sig .tc .vmem S8x64 .f32 := (Memref.whole cc1_stg1_0 : Memref sig .tc .vmem S8x64 .f32).view
abbrev ms_0 (t : Fin cfg1.N) : Memref sig .tc .vmem S8x1024x64 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x64 .f32 := win1_1.stage (cfg1.slots t 1)
abbrev hs_1 (t : Fin cfg1.N) : (ms_1 t).IsWhole := hstage1_1 ((cfg1.slots t 1).cast nbuf1_1)
abbrev scM : Memref sig .tc .vmem S8x64 .f32 := Memref.whole cc1_scratch0
abbrev VS : View sig .tc .vmem S8x64 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant is the accumulator at some contents beside the rest. -/
theorem PhiA_eq (c : Dev nD) : (Pipeline.ΦA spec1 c : sProp 𝕄) = iprop(iprop((∃ d, owns (c : Thread nD τ) scM fullShare d) ∗ Pipeline.scopedRestBut (Ix := Unit) (Name := ℕ) (U := UR sig nD τ) (Lvl := ℕ) (Val := Elt F) spec1 c [cc1_scratch0]) ∗ ∃ r, prngReg c r) := by
  unfold Pipeline.ΦA; rw [Pipeline.scopedRest_split_of_list spec1 c [cc1_scratch0] (by decide) (by decide)]; simp only [scM, owns_whole]; rfl

end Cert.Kernel.R1

end
-- ==== Proof.Kernel.R1.Frame.lean ====
import proofs.«135897_j31885837205965_1_alg».proof.Proof.Kernel.R1.Base
import proofs.«135897_j31885837205965_1_alg».proof.Proof.LibCarry

noncomputable section

namespace Cert.Kernel.R1

open Cert.Kernel.Gen Cert.Kernel.H64
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

/-- The three runs at point `t`, from the input's block. -/
abbrev rA (h0 : t.val % 32 = 0) :=
  kernelRun_A c (grid1.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x64 .f32) :=
  kernelRun_B c (grid1.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x64 .f32) :=
  kernelRun_C c (grid1.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x64 .f32)) : Vec F S8x64 .f32 := VS.read (Elt F) (VS.writes (Elt F) VS.junk L)

/-- The accumulator after the body at position `n`, over what the position before left. -/
def accNext (n : ℕ) (prev : Vec F S8x64 .f32) : Vec F S8x64 .f32 :=
  if hn : n < cfg1.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x64 .f32
  | 0 => accNext V c 0 (back [])
  | n + 1 => accNext V c (n + 1) (accAt n)

abbrev accPrev : Vec F S8x64 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x64 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec1 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg1 c where
  A w := V c (Pipeline.arrRef spec1 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec1 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt1 t) (fun _ =>
        iprop((dat V c).Φ t.succ ∗ (dat V c).owesAt () t.succ ∗ (dat V c).leavesExact 0 t ∗ (dat V c).leavesExact 1 t)) := by
  unfold bodyAt1
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x64.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x64.size VO_1 S8x64.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x64.size .rfl (fun K => (rB V c t h0 h1 _).2 _ Set.univ K) (tiled_B ..)

theorem body_obligation : BodyObligation (dat (F := F) V c) (defs₀ (F := F)) Variants.none () Set.univ := fun t => by
  rw [bigSep_W1, bigSep_W1]
  exact sound_body V c t

theorem hin : Pipeline.ΦA spec1 c ⊢ (dat V c).Φ 0 := .rfl

/-- After the last point the accumulator's contents are forgotten. -/
theorem hout : (dat V c).Φ (Fin.last cfg1.N) ⊢ Pipeline.ΦA spec1 c := by
  rw [PhiA_eq]
  refine (PhiS_some V c (Fin.last cfg1.N).val).trans ?_
  iintro ⟨H, Ho, Hg⟩
  isplitl [H Ho]
  · isplitl [H]; · iexact H
    iexact Ho
  iexact Hg

end Cert.Kernel.R1

end
-- ==== Proof.Kernel.R2.Base.lean ====
import proofs.«135897_j31885837205965_1_alg».proof.Proof.Kernel.H16.Runs

noncomputable section

namespace Cert.Kernel.R2

open Cert.Kernel.Gen Cert.Kernel.H16
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg2.N, cond_0 (grid2.coords t) ↔ t.val % 32 = 0 := by decide +kernel
theorem hcond_1 : ∀ t : Fin cfg2.N, cond_1 (grid2.coords t) ↔ t.val % 32 = 31 := by decide +kernel

theorem liveAt_0 : ∀ t : Fin cfg2.N, cfg2.idle 0 (grid2.coords t) = false := by decide +kernel
theorem idleAt_1 : ∀ t : Fin cfg2.N, ¬t.val % 32 = 31 → cfg2.idle 1 (grid2.coords t) = true := by decide +kernel
theorem noFlush_1 : ∀ t : Fin cfg2.N, ¬t.val % 32 = 31 → (cfg2.win 1).flush t = false := by decide +kernel
theorem liveAt_1 : ∀ t : Fin cfg2.N, t.val % 32 = 31 → cfg2.idle 1 (grid2.coords t) = false := by decide +kernel

abbrev VO_1 : View sig .tc .vmem S8x16 .f32 := (Memref.whole cc2_stg1_0 : Memref sig .tc .vmem S8x16 .f32).view
abbrev ms_0 (t : Fin cfg2.N) : Memref sig .tc .vmem S8x1024x16 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S8x16 .f32 := win2_1.stage (cfg2.slots t 1)
abbrev hs_1 (t : Fin cfg2.N) : (ms_1 t).IsWhole := hstage2_1 ((cfg2.slots t 1).cast nbuf2_1)
abbrev scM : Memref sig .tc .vmem S8x16 .f32 := Memref.whole cc2_scratch0
abbrev VS : View sig .tc .vmem S8x16 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The class invariant is the accumulator at some contents beside the rest. -/
theorem PhiA_eq (c : Dev nD) : (Pipeline.ΦA spec2 c : sProp 𝕄) = iprop(iprop((∃ d, owns (c : Thread nD τ) scM fullShare d) ∗ Pipeline.scopedRestBut (Ix := Unit) (Name := ℕ) (U := UR sig nD τ) (Lvl := ℕ) (Val := Elt F) spec2 c [cc2_scratch0]) ∗ ∃ r, prngReg c r) := by
  unfold Pipeline.ΦA; rw [Pipeline.scopedRest_split_of_list spec2 c [cc2_scratch0] (by decide) (by decide)]; simp only [scM, owns_whole]; rfl

end Cert.Kernel.R2

end
-- ==== Proof.Kernel.R2.Frame.lean ====
import proofs.«135897_j31885837205965_1_alg».proof.Proof.Kernel.R2.Base
import proofs.«135897_j31885837205965_1_alg».proof.Proof.LibCarry

noncomputable section

namespace Cert.Kernel.R2

open Cert.Kernel.Gen Cert.Kernel.H16
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

/-- The three runs at point `t`, from the input's block. -/
abbrev rA (h0 : t.val % 32 = 0) :=
  kernelRun_A c (grid2.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x16 .f32) :=
  kernelRun_B c (grid2.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x16 .f32) :=
  kernelRun_C c (grid2.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x16 .f32)) : Vec F S8x16 .f32 := VS.read (Elt F) (VS.writes (Elt F) VS.junk L)

/-- The accumulator after the body at position `n`, over what the position before left. -/
def accNext (n : ℕ) (prev : Vec F S8x16 .f32) : Vec F S8x16 .f32 :=
  if hn : n < cfg2.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x16 .f32
  | 0 => accNext V c 0 (back [])
  | n + 1 => accNext V c (n + 1) (accAt n)

abbrev accPrev : Vec F S8x16 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x16 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec2 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg2 c where
  A w := V c (Pipeline.arrRef spec2 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec2 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt2 t) (fun _ =>
        iprop((dat V c).Φ t.succ ∗ (dat V c).owesAt () t.succ ∗ (dat V c).leavesExact 0 t ∗ (dat V c).leavesExact 1 t)) := by
  unfold bodyAt2
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x16.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x16.size VO_1 S8x16.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x16.size .rfl (fun K => (rB V c t h0 h1 _).2 _ Set.univ K) (tiled_B ..)

theorem body_obligation : BodyObligation (dat (F := F) V c) (defs₀ (F := F)) Variants.none () Set.univ := fun t => by
  rw [bigSep_W2, bigSep_W2]
  exact sound_body V c t

theorem hin : Pipeline.ΦA spec2 c ⊢ (dat V c).Φ 0 := .rfl

/-- After the last point the accumulator's contents are forgotten. -/
theorem hout : (dat V c).Φ (Fin.last cfg2.N) ⊢ Pipeline.ΦA spec2 c := by
  rw [PhiA_eq]
  refine (PhiS_some V c (Fin.last cfg2.N).val).trans ?_
  iintro ⟨H, Ho, Hg⟩
  isplitl [H Ho]
  · isplitl [H]; · iexact H
    iexact Ho
  iexact Hg

end Cert.Kernel.R2

end
-- ==== Proof.Kernel.R3.Base.lean ====
import proofs.«135897_j31885837205965_1_alg».proof.Proof.Kernel.H64.Runs

noncomputable section

namespace Cert.Kernel.R3

open Cert.Kernel.Gen Cert.Kernel.H64
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg3.N, cond_0 (grid3.coords t) ↔ t.val % 32 = 0 := by decide +kernel
theorem hcond_1 : ∀ t : Fin cfg3.N, cond_1 (grid3.coords t) ↔ t.val % 32 = 31 := by decide +kernel

theorem liveAt_0 : ∀ t : Fin cfg3.N, cfg3.idle 0 (grid3.coords t) = false := by decide +kernel
theorem idleAt_1 : ∀ t : Fin cfg3.N, ¬t.val % 32 = 31 → cfg3.idle 1 (grid3.coords t) = true := by decide +kernel
theorem noFlush_1 : ∀ t : Fin cfg3.N, ¬t.val % 32 = 31 → (cfg3.win 1).flush t = false := by decide +kernel
theorem liveAt_1 : ∀ t : Fin cfg3.N, t.val % 32 = 31 → cfg3.idle 1 (grid3.coords t) = false := by decide +kernel

abbrev VO_1 : View sig .tc .vmem S8x64 .f32 := (Memref.whole cc3_stg1_0 : Memref sig .tc .vmem S8x64 .f32).view
abbrev ms_0 (t : Fin cfg3.N) : Memref sig .tc .vmem S8x1024x64 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S8x64 .f32 := win3_1.stage (cfg3.slots t 1)
abbrev hs_1 (t : Fin cfg3.N) : (ms_1 t).IsWhole := hstage3_1 ((cfg3.slots t 1).cast nbuf3_1)
abbrev scM : Memref sig .tc .vmem S8x64 .f32 := Memref.whole cc3_scratch0
abbrev VS : View sig .tc .vmem S8x64 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The class invariant is the accumulator at some contents beside the rest. -/
theorem PhiA_eq (c : Dev nD) : (Pipeline.ΦA spec3 c : sProp 𝕄) = iprop(iprop((∃ d, owns (c : Thread nD τ) scM fullShare d) ∗ Pipeline.scopedRestBut (Ix := Unit) (Name := ℕ) (U := UR sig nD τ) (Lvl := ℕ) (Val := Elt F) spec3 c [cc3_scratch0]) ∗ ∃ r, prngReg c r) := by
  unfold Pipeline.ΦA; rw [Pipeline.scopedRest_split_of_list spec3 c [cc3_scratch0] (by decide) (by decide)]; simp only [scM, owns_whole]; rfl

end Cert.Kernel.R3

end
-- ==== Proof.Kernel.R3.Frame.lean ====
import proofs.«135897_j31885837205965_1_alg».proof.Proof.Kernel.R3.Base
import proofs.«135897_j31885837205965_1_alg».proof.Proof.LibCarry

noncomputable section

namespace Cert.Kernel.R3

open Cert.Kernel.Gen Cert.Kernel.H64
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

/-- The three runs at point `t`, from the input's block. -/
abbrev rA (h0 : t.val % 32 = 0) :=
  kernelRun_A c (grid3.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x64 .f32) :=
  kernelRun_B c (grid3.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x64 .f32) :=
  kernelRun_C c (grid3.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x64 .f32)) : Vec F S8x64 .f32 := VS.read (Elt F) (VS.writes (Elt F) VS.junk L)

/-- The accumulator after the body at position `n`, over what the position before left. -/
def accNext (n : ℕ) (prev : Vec F S8x64 .f32) : Vec F S8x64 .f32 :=
  if hn : n < cfg3.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x64 .f32
  | 0 => accNext V c 0 (back [])
  | n + 1 => accNext V c (n + 1) (accAt n)

abbrev accPrev : Vec F S8x64 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x64 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec3 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg3 c where
  A w := V c (Pipeline.arrRef spec3 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec3 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt3 t) (fun _ =>
        iprop((dat V c).Φ t.succ ∗ (dat V c).owesAt () t.succ ∗ (dat V c).leavesExact 0 t ∗ (dat V c).leavesExact 1 t)) := by
  unfold bodyAt3
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x64.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x64.size VO_1 S8x64.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x64.size .rfl (fun K => (rB V c t h0 h1 _).2 _ Set.univ K) (tiled_B ..)

theorem body_obligation : BodyObligation (dat (F := F) V c) (defs₀ (F := F)) Variants.none () Set.univ := fun t => by
  rw [bigSep_W3, bigSep_W3]
  exact sound_body V c t

theorem hin : Pipeline.ΦA spec3 c ⊢ (dat V c).Φ 0 := .rfl

/-- After the last point the accumulator's contents are forgotten. -/
theorem hout : (dat V c).Φ (Fin.last cfg3.N) ⊢ Pipeline.ΦA spec3 c := by
  rw [PhiA_eq]
  refine (PhiS_some V c (Fin.last cfg3.N).val).trans ?_
  iintro ⟨H, Ho, Hg⟩
  isplitl [H Ho]
  · isplitl [H]; · iexact H
    iexact Ho
  iexact Hg

end Cert.Kernel.R3

end
-- ==== Proof.LibRegionSeg.lean ====
import Idealize.ShloMosaic.Lib.Pipeline.FrameBody
import Idealize.ShloMosaic.Lib.Pipeline.RegionsLoop
import Idealize.ShloMosaic.Lib.Pipeline.FrameSuffix

noncomputable section

namespace Idealize.ShloMosaic.Pipeline

open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
variable {Λ₀ : SL.Sem.Labels} {P : Type} [Fintype P]

local notation "𝕄" => MT nD τ sig Unit Val ℕ U ℕ

variable {cfgs : P → Cfg sig Λ₀} {pdats : (p : P) → (c : Dev nD) → Dat τ Val Unit ℕ U ℕ (cfgs p) c}
  {defs₀ : Defs nD τ sig Val Λ₀} {𝒱₀ : Variants} {L : GSem nD τ sig → Finset Unit} {lv : GSem nD τ sig → Unit → ℕ}

set_option backward.isDefEq.respectTransparency.types false in
def RegionSeg.ofUpdate {p : P} (kit : LaunchFacts (nD := nD) (τ := τ) cfgs p) (o : Fin (cfgs p).W)
    (hio : ∀ w, w ≠ o → ((cfgs p).spec w).isOut = false) (V V' : Dev nD → Valuation τ sig Val)
    (hV' : ∀ c, V' c = Function.update (V c) (arrRef (cfgs p).spec o) ((pdats p c).arrAt o (cfgs p).N))
    (hbody : ∀ c, BodyObligationLoose (pdats p c) defs₀ 𝒱₀ () Set.univ)
    (hq : ∀ c w, (pdats p c).q w = fullShare) (howed : ∀ c t, (pdats p c).owed t = 0)
    (hrec : ∀ c x, x ∈ (pdats p c).recorded 0) (hA : ∀ c w, (pdats p c).A w = V c (arrRef (cfgs p).spec w))
    (hΦ0 : ∀ c, (ΦA (cfgs p).spec c : sProp 𝕄) ⊢ (pdats p c).Φ 0)
    (hΦN : ∀ c, (pdats p c).Φ (Fin.last (cfgs p).N) ⊢ (ΦA (cfgs p).spec c : sProp 𝕄)) :
    RegionSeg (fun q => (cfgs q).toPCfg) (fun q => (cfgs q).toPCfg_adm) pdats () defs₀ 𝒱₀ L lv p where
  win := kit.win.to₀
  block_pos := kit.block_pos
  stage_whole := kit.stage_whole
  K := PEmpty
  osem k := k.elim
  ho := OwnSemFacts.none _
  hbody := hbody
  hwaits := hwaits_of_owed_zero _ _ _ _ L lv p howed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (V' c) ∗ (∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := U) (Lvl := ℕ) (cfgs p).spec c fun b => V c b
  hentry c := by
    rw [ownSems0_none]
    have hsplit := arrays_of_unscopedBufs (p := p) (fun q => (cfgs q).toPCfg) (fun q => (cfgs q).toPCfg_adm) pdats kit.win kit.arr_whole c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦ0 c); unfold ΦA
    iintro ⟨Hp, -, Hr⟩
    isplitl [Hr]; · iexact Hr
    iexact Hp
  hout c := by
    rw [ownSems0_none]; refine (hΦN c).trans ?_; unfold ΦA
    iintro ⟨Hr, Hp⟩
    isplitl [Hp]; · iexact Hp
    isplitr; · iempintro
    iexact Hr
  hexit c := by
    have hjoin := unscopedBufs_of_arrays (p := p) (fun q => (cfgs q).toPCfg) (fun q => (cfgs q).toPCfg_adm) (Ix := Unit) (Name := ℕ) (U := U) (Lvl := ℕ)
      kit.win kit.arr_whole c pdats ((pdats p c).share_full (hq c))
      (fun b => V c b) (fun b => V' c b) ((pdats p c).arrAt · (cfgs p).N)
      (fun w => show (pdats p c).arrAt w (cfgs p).N = V' c (arrRef (cfgs p).spec w) from by
        rw [hV' c]
        by_cases h : w = o
        · subst h; rw [Function.update_self]
        · rw [Function.update_of_ne (StableHlo.devRef_ne_of_ne (kit.win.arr_inj.ne h))]
          exact ((pdats p c).arrAt_in w (hio w h) _).trans (hA c w))
      (fun b hb => by
        rw [hV' c]
        exact Function.update_of_ne (StableHlo.devRef_ne_of_ne fun e => hb (Finset.mem_image.mpr ⟨o, Finset.mem_univ _, e.symm⟩)) _ _)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin; rw [howed c]
    icases HO with ⟨%W, -, HO⟩; iexists W; iexact HO

end Idealize.ShloMosaic.Pipeline

end
-- ==== Proof.Kernel.Main.lean ====
import proofs.«135897_j31885837205965_1_alg».proof.Proof.Kernel.R0.Frame
import proofs.«135897_j31885837205965_1_alg».proof.Proof.Kernel.R1.Frame
import proofs.«135897_j31885837205965_1_alg».proof.Proof.Kernel.R2.Frame
import proofs.«135897_j31885837205965_1_alg».proof.Proof.Kernel.R3.Frame
import proofs.«135897_j31885837205965_1_alg».proof.Proof.Gen.Kernel.Regions
import proofs.«135897_j31885837205965_1_alg».proof.Proof.LibRegionSeg

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- A reference that neither the host operations `ops` nor the update at `o` after them write keeps its contents. -/
theorem update_after {ops : List (HloOp τ sig (Elt F))} {Wr : List (Ref sig .tc)}
    (hw : ops.Forall fun op => op.writes ⊆ (Wr.map (Proc.devRef (τ := τ) .tc)).toFinset) {V : Valuation τ sig (Elt F)}
    {o r : Ref sig .tc} {x : (Proc.devRef (τ := τ) .tc o).ty.Contents (Elt F)} (h : r ∉ Wr) (h' : r ≠ o) :
    Function.update (StableHlo.after ops V) (Proc.devRef .tc o) x (Proc.devRef .tc r) = V (Proc.devRef .tc r) :=
  (Function.update_of_ne (StableHlo.devRef_ne_of_ne h') _ _).trans (StableHlo.after_of_writes_sub ops V hw h)

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Function.update (W1 m c) (Pipeline.arrRef spec0 1) ((R0.dat (V1 m) c).arrAt 1 cfg0.N)
theorem W2_of (c : Dev nD) (r : Ref sig .tc) (h : r ∉ hostOps0_W := by decide) (h' : r ≠ Pipeline.arrRef spec0 1 := by decide) :
    W2 m c (Proc.devRef .tc r) = W0 m c (Proc.devRef .tc r) := update_after hostOps0_writes h h'
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) (Pipeline.arrRef spec1 1) ((R1.dat (V3 m) c).arrAt 1 cfg1.N)
theorem W4_of (c : Dev nD) (r : Ref sig .tc) (h : r ∉ hostOps1_W := by decide) (h' : r ≠ Pipeline.arrRef spec1 1 := by decide) :
    W4 m c (Proc.devRef .tc r) = W2 m c (Proc.devRef .tc r) := update_after hostOps1_writes h h'
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Function.update (W5 m c) (Pipeline.arrRef spec2 1) ((R2.dat (V5 m) c).arrAt 1 cfg2.N)
theorem W6_of (c : Dev nD) (r : Ref sig .tc) (h : r ∉ hostOps2_W := by decide) (h' : r ≠ Pipeline.arrRef spec2 1 := by decide) :
    W6 m c (Proc.devRef .tc r) = W4 m c (Proc.devRef .tc r) := update_after hostOps2_writes h h'
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Function.update (W7 m c) (Pipeline.arrRef spec3 1) ((R3.dat (V7 m) c).arrAt 1 cfg3.N)
theorem W8_of (c : Dev nD) (r : Ref sig .tc) (h : r ∉ hostOps3_W := by decide) (h' : r ≠ Pipeline.arrRef spec3 1 := by decide) :
    W8 m c (Proc.devRef .tc r) = W6 m c (Proc.devRef .tc r) := update_after hostOps3_writes h h'

theorem W2_main_arg1 (c : Dev nD) : W2 m c (Proc.devRef .tc main_arg1) = m ((c : Thread nD τ).loc main_arg1) :=
  W2_of m c main_arg1
theorem W4_main_arg2 (c : Dev nD) : W4 m c (Proc.devRef .tc main_arg2) = m ((c : Thread nD τ).loc main_arg2) :=
  (W4_of m c main_arg2).trans (W2_of m c main_arg2)
theorem W6_main_arg3 (c : Dev nD) : W6 m c (Proc.devRef .tc main_arg3) = m ((c : Thread nD τ).loc main_arg3) :=
  (W6_of m c main_arg3).trans <| (W4_of m c main_arg3).trans (W2_of m c main_arg3)
/-- No item writes an argument. -/
theorem W8_arg (c : Dev nD) {r : Ref sig .tc} (h : r ∈ [main_arg0, main_arg1, main_arg2, main_arg3]) :
    W8 m c (Proc.devRef .tc r) = m ((c : Thread nD τ).loc r) := by
  fin_cases h <;> exact (W8_of m c _).trans <| (W6_of m c _).trans <| (W4_of m c _).trans (W2_of m c _)

def pdats : (p : Fin 4) → (c : Dev nD) → Dat τ (Elt F) Unit ℕ (UR sig nD τ) ℕ (cfgs p) c
  | ⟨0, _⟩ => R0.dat (V1 m)
  | ⟨1, _⟩ => R1.dat (V3 m)
  | ⟨2, _⟩ => R2.dat (V5 m)
  | ⟨3, _⟩ => R3.dat (V7 m)
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped := by decide) :
    Proc.devRef .tc b ∈ Pipeline.ucRefs τ sig :=
  Finset.mem_filter.mpr ⟨StableHlo.devRef_mem_tcRefs b, h⟩

def reg0 : Pipeline.RegionSeg (pcfgs (F := F)) adm (pdats m) () defs₀ 𝒱₀ L lv 0 :=
  .ofUpdate launch0 (1 : Fin 2) (by decide) (W1 m) (W2 m) (fun _ => rfl) (fun c => (R0.body_obligation (V1 m) c).loose)
    (fun _ _ => rfl) (fun _ _ => rfl) (fun _ _ => trivial) (fun _ _ => rfl) (R0.hin (V1 m)) (R0.hout (V1 m))

def reg1 : Pipeline.RegionSeg (pcfgs (F := F)) adm (pdats m) () defs₀ 𝒱₀ L lv 1 :=
  .ofUpdate launch1 (1 : Fin 2) (by decide) (W3 m) (W4 m) (fun _ => rfl) (fun c => (R1.body_obligation (V3 m) c).loose)
    (fun _ _ => rfl) (fun _ _ => rfl) (fun _ _ => trivial) (fun _ _ => rfl) (R1.hin (V3 m)) (R1.hout (V3 m))

def reg2 : Pipeline.RegionSeg (pcfgs (F := F)) adm (pdats m) () defs₀ 𝒱₀ L lv 2 :=
  .ofUpdate launch2 (1 : Fin 2) (by decide) (W5 m) (W6 m) (fun _ => rfl) (fun c => (R2.body_obligation (V5 m) c).loose)
    (fun _ _ => rfl) (fun _ _ => rfl) (fun _ _ => trivial) (fun _ _ => rfl) (R2.hin (V5 m)) (R2.hout (V5 m))

def reg3 : Pipeline.RegionSeg (pcfgs (F := F)) adm (pdats m) () defs₀ 𝒱₀ L lv 3 :=
  .ofUpdate launch3 (1 : Fin 2) (by decide) (W7 m) (W8 m) (fun _ => rfl) (fun c => (R3.body_obligation (V7 m) c).loose)
    (fun _ _ => rfl) (fun _ _ => rfl) (fun _ _ => trivial) (fun _ _ => rfl) (R3.hin (V7 m)) (R3.hout (V7 m))

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m) ]
theorem main_run (c : Dev nD) : main (F := F) c = Pipeline.Seg.run (segs m) := (main_chain c).trans (by chain_rfl)

/-- Every weakly fair execution of @main terminates; each result ends as its region's final output array and each argument as launched. -/
theorem run_results (ρ : Dev nD → PrngReg) : θ_run defs (onTc (τ := τ) (main (F := F))) ⟨m, fun _ => 0, ρ⟩ (fun r => ∀ c : Dev nD,
      r.2.mem ((c.tc : Thread nD τ).loc main_v1) = (R0.dat (V1 m) c).arrAt 1 cfg0.N
      ∧ r.2.mem ((c.tc : Thread nD τ).loc main_v3) = (R1.dat (V3 m) c).arrAt 1 cfg1.N
      ∧ r.2.mem ((c.tc : Thread nD τ).loc main_v5) = (R2.dat (V5 m) c).arrAt 1 cfg2.N
      ∧ r.2.mem ((c.tc : Thread nD τ).loc main_v7) = (R3.dat (V7 m) c).arrAt 1 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v1)).trans <| (W8_of m c main_v1).trans <| (W6_of m c main_v1).trans <| (W4_of m c main_v1).trans (Function.update_self ..),
       (h c _ (mem_uc main_v3)).trans <| (W8_of m c main_v3).trans <| (W6_of m c main_v3).trans (Function.update_self ..),
       (h c _ (mem_uc main_v5)).trans <| (W8_of m c main_v5).trans (Function.update_self ..),
       (h c _ (mem_uc main_v7)).trans (Function.update_self ..),
       (h c _ (mem_uc main_arg0)).trans (W8_arg m c (by decide)), (h c _ (mem_uc main_arg1)).trans (W8_arg m c (by decide)),
       (h c _ (mem_uc main_arg2)).trans (W8_arg m c (by decide)), (h c _ (mem_uc main_arg3)).trans (W8_arg m c (by decide))⟩)

/-- Every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2.2) (run_results m ρ)

end Cert.Kernel.Run

end
-- ==== Proof.KernelIdeal.H16.Runs.lean ====
import proofs.«135897_j31885837205965_1_alg».proof.Proof.Gen.KernelIdeal.Launch
import proofs.«135897_j31885837205965_1_alg».proof.Proof.Gen.KernelIdeal.Skeleton
import proofs.«135897_j31885837205965_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.H16

open Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

/-- The body resets its accumulator at the first of a batch block's 32 tiles and stores the output at the last. -/
abbrev cond_0 (i : grid0.Coords) : Prop := (Scalar.cmpi .ne (Scalar.extui (Scalar.cmpi .eq (BitVec.ofNat 32 (i 1).val) 0#32)) 0#32) = 1#1
abbrev cond_1 (i : grid0.Coords) : Prop := k0_cond2 i = 1#1

variable (c : Dev nD) (i : grid0.Coords) (arg2 : Memref sig .tc .vmem S8x1024x16 .f32) (harg2 : arg2.IsWhole)
  (arg3 : Memref sig .tc .vmem S8x16 .f32) (harg3 : arg3.IsWhole) (arg4 : Memref sig .tc .vmem S8x16 .f32) (harg4 : arg4.IsWhole)
  (x0 : Vec F S8x1024x16 .f32) (xs0 : Vec F S8x16 .f32)

/-- The body run from the input buffer at `x0`, the output buffer at `A3` and the accumulator at `A4`: it hands the
    input back, leaves the output buffer at `B3` and the pieces `LS0` in the accumulator. -/
abbrev Runs (A3 A4 B3 : sProp 𝕄) (LS0 : List (View.Piece (Elt F) S8x16 .f32)) : Prop :=
  ∀ (E : Set ℕ) (K : PUnit → sProp 𝕄),
    iprop(owns (c : Thread nD τ) arg2 fullShare x0 ∗ A3 ∗ A4
        ∗ (iprop(owns (c : Thread nD τ) arg2 fullShare x0 ∗ B3 ∗ (∃ f, arg4.view.loc (c : Thread nD τ) ↦[arg4.view.set]{fullShare} arg4.view.writes (Elt F) f LS0)) -∗ K ⟨⟩))
      ⊢ wp frame (wpE (defs₀ (F := F)) Variants.none c none) E (cc0__hist_kernel i arg2 harg2 arg3 harg3 arg4 harg4) K

set_option maxHeartbeats 1000000 in
/-- First tile of a batch block: the accumulator is reset, then the tile's counts are added; the output buffer is not touched. -/
def kernelRun_A (hc0 : cond_0 i) (hc1 : ¬cond_1 i) : { LS0 : List (View.Piece (Elt F) S8x16 .f32) //
    ∀ A3 : sProp 𝕄, Runs c i arg2 harg2 arg3 harg3 arg4 harg4 x0 A3 iprop(∃ d, owns (c : Thread nD τ) arg4 fullShare d) A3 LS0 } := by
  refine ⟨?_, fun A3 E K => ?run⟩
  case run =>
    simp only [cc0__hist_kernel_eq_skeleton]; unfold cc0__hist_kernel_skel
    unfold owns
    iintro ⟨⟨%f0, %hf0, H0⟩, H1, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Middle tile: the tile's counts are added to what the tile before left. -/
def kernelRun_B (hc0 : ¬cond_0 i) (hc1 : ¬cond_1 i) : { LS0 : List (View.Piece (Elt F) S8x16 .f32) //
    ∀ A3 : sProp 𝕄, Runs c i arg2 harg2 arg3 harg3 arg4 harg4 x0 A3 (owns (c : Thread nD τ) arg4 fullShare xs0) A3 LS0 } := by
  refine ⟨?_, fun A3 E K => ?run⟩
  case run =>
    simp only [cc0__hist_kernel_eq_skeleton]; unfold cc0__hist_kernel_skel
    unfold owns
    iintro ⟨⟨%f0, %hf0, H0⟩, H1, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Last tile: the counts are added, then the normalised rows are stored into the output buffer (pieces `L1`). -/
def kernelRun_C (hc0 : ¬cond_0 i) (hc1 : cond_1 i) : Σ' (L1 : List (View.Piece (Elt F) S8x16 .f32)), { LS0 : List (View.Piece (Elt F) S8x16 .f32) //
    Runs c i arg2 harg2 arg3 harg3 arg4 harg4 x0 iprop(∃ d, owns (c : Thread nD τ) arg3 fullShare d) (owns (c : Thread nD τ) arg4 fullShare xs0)
      iprop(∃ f, arg3.view.loc (c : Thread nD τ) ↦[arg3.view.set]{fullShare} arg3.view.writes (Elt F) f L1) LS0 } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

variable (hp : cond_0 i) (hn : ¬cond_0 i) (hq : cond_1 i) (hm : ¬cond_1 i)

/-- Each case's pieces tile their buffer. -/
theorem tiled_A : View.Piece.tiledL (kernelRun_A c i arg2 harg2 arg3 harg3 arg4 harg4 x0 hp hm).1 S8x16.size = true := by sl_kernel_rfl
theorem tiled_B : View.Piece.tiledL (kernelRun_B c i arg2 harg2 arg3 harg3 arg4 harg4 x0 xs0 hn hm).1 S8x16.size = true := by sl_kernel_rfl
theorem tiled_C : View.Piece.tiledL (kernelRun_C c i arg2 harg2 arg3 harg3 arg4 harg4 x0 xs0 hn hq).2.1 S8x16.size = true := by sl_kernel_rfl
theorem tiled_C_1 : View.Piece.tiledL (kernelRun_C c i arg2 harg2 arg3 harg3 arg4 harg4 x0 xs0 hn hq).1 S8x16.size = true := by sl_kernel_rfl

end Cert.KernelIdeal.H16

end
-- ==== Proof.KernelIdeal.R0.Base.lean ====
import proofs.«135897_j31885837205965_1_alg».proof.Proof.KernelIdeal.H16.Runs

noncomputable section

namespace Cert.KernelIdeal.R0

open Cert.KernelIdeal.Gen Cert.KernelIdeal.H16
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg0.N, cond_0 (grid0.coords t) ↔ t.val % 32 = 0 := by decide +kernel
theorem hcond_1 : ∀ t : Fin cfg0.N, cond_1 (grid0.coords t) ↔ t.val % 32 = 31 := by decide +kernel

theorem liveAt_0 : ∀ t : Fin cfg0.N, cfg0.idle 0 (grid0.coords t) = false := by decide +kernel
theorem idleAt_1 : ∀ t : Fin cfg0.N, ¬t.val % 32 = 31 → cfg0.idle 1 (grid0.coords t) = true := by decide +kernel
theorem noFlush_1 : ∀ t : Fin cfg0.N, ¬t.val % 32 = 31 → (cfg0.win 1).flush t = false := by decide +kernel
theorem liveAt_1 : ∀ t : Fin cfg0.N, t.val % 32 = 31 → cfg0.idle 1 (grid0.coords t) = false := by decide +kernel

abbrev VO_1 : View sig .tc .vmem S8x16 .f32 := (Memref.whole cc0_stg1_0 : Memref sig .tc .vmem S8x16 .f32).view
abbrev ms_0 (t : Fin cfg0.N) : Memref sig .tc .vmem S8x1024x16 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x16 .f32 := win0_1.stage (cfg0.slots t 1)
abbrev hs_1 (t : Fin cfg0.N) : (ms_1 t).IsWhole := hstage0_1 ((cfg0.slots t 1).cast nbuf0_1)
abbrev scM : Memref sig .tc .vmem S8x16 .f32 := Memref.whole cc0_scratch0
abbrev VS : View sig .tc .vmem S8x16 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant is the accumulator at some contents beside the rest. -/
theorem PhiA_eq (c : Dev nD) : (Pipeline.ΦA spec0 c : sProp 𝕄) = iprop(iprop((∃ d, owns (c : Thread nD τ) scM fullShare d) ∗ Pipeline.scopedRestBut (Ix := Unit) (Name := ℕ) (U := UR sig nD τ) (Lvl := ℕ) (Val := Elt F) spec0 c [cc0_scratch0]) ∗ ∃ r, prngReg c r) := by
  unfold Pipeline.ΦA; rw [Pipeline.scopedRest_split_of_list spec0 c [cc0_scratch0] (by decide) (by decide)]; simp only [scM, owns_whole]; rfl

end Cert.KernelIdeal.R0

end
-- ==== Proof.KernelIdeal.R0.Frame.lean ====
import proofs.«135897_j31885837205965_1_alg».proof.Proof.KernelIdeal.R0.Base
import proofs.«135897_j31885837205965_1_alg».proof.Proof.LibCarry

noncomputable section

namespace Cert.KernelIdeal.R0

open Cert.KernelIdeal.Gen Cert.KernelIdeal.H16
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

/-- The three runs at point `t`, from the input's block. -/
abbrev rA (h0 : t.val % 32 = 0) :=
  kernelRun_A c (grid0.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x16 .f32) :=
  kernelRun_B c (grid0.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x16 .f32) :=
  kernelRun_C c (grid0.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x16 .f32)) : Vec F S8x16 .f32 := VS.read (Elt F) (VS.writes (Elt F) VS.junk L)

/-- The accumulator after the body at position `n`, over what the position before left. -/
def accNext (n : ℕ) (prev : Vec F S8x16 .f32) : Vec F S8x16 .f32 :=
  if hn : n < cfg0.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x16 .f32
  | 0 => accNext V c 0 (back [])
  | n + 1 => accNext V c (n + 1) (accAt n)

abbrev accPrev : Vec F S8x16 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x16 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec0 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg0 c where
  A w := V c (Pipeline.arrRef spec0 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec0 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt0 t) (fun _ =>
        iprop((dat V c).Φ t.succ ∗ (dat V c).owesAt () t.succ ∗ (dat V c).leavesExact 0 t ∗ (dat V c).leavesExact 1 t)) := by
  unfold bodyAt0
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x16.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x16.size VO_1 S8x16.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x16.size .rfl (fun K => (rB V c t h0 h1 _).2 _ Set.univ K) (tiled_B ..)

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := .rfl

/-- After the last point the accumulator's contents are forgotten. -/
theorem hout : (dat V c).Φ (Fin.last cfg0.N) ⊢ Pipeline.ΦA spec0 c := by
  rw [PhiA_eq]
  refine (PhiS_some V c (Fin.last cfg0.N).val).trans ?_
  iintro ⟨H, Ho, Hg⟩
  isplitl [H Ho]
  · isplitl [H]; · iexact H
    iexact Ho
  iexact Hg

end Cert.KernelIdeal.R0

end
-- ==== Proof.KernelIdeal.H64.Runs.lean ====
import proofs.«135897_j31885837205965_1_alg».proof.Proof.Gen.KernelIdeal.Launch
import proofs.«135897_j31885837205965_1_alg».proof.Proof.Gen.KernelIdeal.Skeleton
import proofs.«135897_j31885837205965_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.H64

open Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

/-- The body resets its accumulator at the first of a batch block's 32 tiles and stores the output at the last. -/
abbrev cond_0 (i : grid1.Coords) : Prop := (Scalar.cmpi .ne (Scalar.extui (Scalar.cmpi .eq (BitVec.ofNat 32 (i 1).val) 0#32)) 0#32) = 1#1
abbrev cond_1 (i : grid1.Coords) : Prop := k1_cond2 i = 1#1

variable (c : Dev nD) (i : grid1.Coords) (arg2 : Memref sig .tc .vmem S8x1024x64 .f32) (harg2 : arg2.IsWhole)
  (arg3 : Memref sig .tc .vmem S8x64 .f32) (harg3 : arg3.IsWhole) (arg4 : Memref sig .tc .vmem S8x64 .f32) (harg4 : arg4.IsWhole)
  (x0 : Vec F S8x1024x64 .f32) (xs0 : Vec F S8x64 .f32)

/-- The body run from the input buffer at `x0`, the output buffer at `A3` and the accumulator at `A4`: it hands the
    input back, leaves the output buffer at `B3` and the pieces `LS0` in the accumulator. -/
abbrev Runs (A3 A4 B3 : sProp 𝕄) (LS0 : List (View.Piece (Elt F) S8x64 .f32)) : Prop :=
  ∀ (E : Set ℕ) (K : PUnit → sProp 𝕄),
    iprop(owns (c : Thread nD τ) arg2 fullShare x0 ∗ A3 ∗ A4
        ∗ (iprop(owns (c : Thread nD τ) arg2 fullShare x0 ∗ B3 ∗ (∃ f, arg4.view.loc (c : Thread nD τ) ↦[arg4.view.set]{fullShare} arg4.view.writes (Elt F) f LS0)) -∗ K ⟨⟩))
      ⊢ wp frame (wpE (defs₀ (F := F)) Variants.none c none) E (cc1__hist_kernel i arg2 harg2 arg3 harg3 arg4 harg4) K

set_option maxHeartbeats 1000000 in
/-- First tile of a batch block: the accumulator is reset, then the tile's counts are added; the output buffer is not touched. -/
def kernelRun_A (hc0 : cond_0 i) (hc1 : ¬cond_1 i) : { LS0 : List (View.Piece (Elt F) S8x64 .f32) //
    ∀ A3 : sProp 𝕄, Runs c i arg2 harg2 arg3 harg3 arg4 harg4 x0 A3 iprop(∃ d, owns (c : Thread nD τ) arg4 fullShare d) A3 LS0 } := by
  refine ⟨?_, fun A3 E K => ?run⟩
  case run =>
    simp only [cc1__hist_kernel_eq_skeleton]; unfold cc1__hist_kernel_skel
    unfold owns
    iintro ⟨⟨%f0, %hf0, H0⟩, H1, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Middle tile: the tile's counts are added to what the tile before left. -/
def kernelRun_B (hc0 : ¬cond_0 i) (hc1 : ¬cond_1 i) : { LS0 : List (View.Piece (Elt F) S8x64 .f32) //
    ∀ A3 : sProp 𝕄, Runs c i arg2 harg2 arg3 harg3 arg4 harg4 x0 A3 (owns (c : Thread nD τ) arg4 fullShare xs0) A3 LS0 } := by
  refine ⟨?_, fun A3 E K => ?run⟩
  case run =>
    simp only [cc1__hist_kernel_eq_skeleton]; unfold cc1__hist_kernel_skel
    unfold owns
    iintro ⟨⟨%f0, %hf0, H0⟩, H1, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexact H1
    iexists _; iexact HS0

set_option maxHeartbeats 1000000 in
/-- Last tile: the counts are added, then the normalised rows are stored into the output buffer (pieces `L1`). -/
def kernelRun_C (hc0 : ¬cond_0 i) (hc1 : cond_1 i) : Σ' (L1 : List (View.Piece (Elt F) S8x64 .f32)), { LS0 : List (View.Piece (Elt F) S8x64 .f32) //
    Runs c i arg2 harg2 arg3 harg3 arg4 harg4 x0 iprop(∃ d, owns (c : Thread nD τ) arg3 fullShare d) (owns (c : Thread nD τ) arg4 fullShare xs0)
      iprop(∃ f, arg3.view.loc (c : Thread nD τ) ↦[arg3.view.set]{fullShare} arg3.view.writes (Elt F) f L1) LS0 } := by
  refine ⟨?_, ?_, fun E K => ?run⟩
  case run =>
    simp only [cc1__hist_kernel_eq_skeleton]; unfold cc1__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

variable (hp : cond_0 i) (hn : ¬cond_0 i) (hq : cond_1 i) (hm : ¬cond_1 i)

/-- Each case's pieces tile their buffer. -/
theorem tiled_A : View.Piece.tiledL (kernelRun_A c i arg2 harg2 arg3 harg3 arg4 harg4 x0 hp hm).1 S8x64.size = true := by sl_kernel_rfl
theorem tiled_B : View.Piece.tiledL (kernelRun_B c i arg2 harg2 arg3 harg3 arg4 harg4 x0 xs0 hn hm).1 S8x64.size = true := by sl_kernel_rfl
theorem tiled_C : View.Piece.tiledL (kernelRun_C c i arg2 harg2 arg3 harg3 arg4 harg4 x0 xs0 hn hq).2.1 S8x64.size = true := by sl_kernel_rfl
theorem tiled_C_1 : View.Piece.tiledL (kernelRun_C c i arg2 harg2 arg3 harg3 arg4 harg4 x0 xs0 hn hq).1 S8x64.size = true := by sl_kernel_rfl

end Cert.KernelIdeal.H64

end
-- ==== Proof.KernelIdeal.R1.Base.lean ====
import proofs.«135897_j31885837205965_1_alg».proof.Proof.KernelIdeal.H64.Runs

noncomputable section

namespace Cert.KernelIdeal.R1

open Cert.KernelIdeal.Gen Cert.KernelIdeal.H64
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg1.N, cond_0 (grid1.coords t) ↔ t.val % 32 = 0 := by decide +kernel
theorem hcond_1 : ∀ t : Fin cfg1.N, cond_1 (grid1.coords t) ↔ t.val % 32 = 31 := by decide +kernel

theorem liveAt_0 : ∀ t : Fin cfg1.N, cfg1.idle 0 (grid1.coords t) = false := by decide +kernel
theorem idleAt_1 : ∀ t : Fin cfg1.N, ¬t.val % 32 = 31 → cfg1.idle 1 (grid1.coords t) = true := by decide +kernel
theorem noFlush_1 : ∀ t : Fin cfg1.N, ¬t.val % 32 = 31 → (cfg1.win 1).flush t = false := by decide +kernel
theorem liveAt_1 : ∀ t : Fin cfg1.N, t.val % 32 = 31 → cfg1.idle 1 (grid1.coords t) = false := by decide +kernel

abbrev VO_1 : View sig .tc .vmem S8x64 .f32 := (Memref.whole cc1_stg1_0 : Memref sig .tc .vmem S8x64 .f32).view
abbrev ms_0 (t : Fin cfg1.N) : Memref sig .tc .vmem S8x1024x64 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x64 .f32 := win1_1.stage (cfg1.slots t 1)
abbrev hs_1 (t : Fin cfg1.N) : (ms_1 t).IsWhole := hstage1_1 ((cfg1.slots t 1).cast nbuf1_1)
abbrev scM : Memref sig .tc .vmem S8x64 .f32 := Memref.whole cc1_scratch0
abbrev VS : View sig .tc .vmem S8x64 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant is the accumulator at some contents beside the rest. -/
theorem PhiA_eq (c : Dev nD) : (Pipeline.ΦA spec1 c : sProp 𝕄) = iprop(iprop((∃ d, owns (c : Thread nD τ) scM fullShare d) ∗ Pipeline.scopedRestBut (Ix := Unit) (Name := ℕ) (U := UR sig nD τ) (Lvl := ℕ) (Val := Elt F) spec1 c [cc1_scratch0]) ∗ ∃ r, prngReg c r) := by
  unfold Pipeline.ΦA; rw [Pipeline.scopedRest_split_of_list spec1 c [cc1_scratch0] (by decide) (by decide)]; simp only [scM, owns_whole]; rfl

end Cert.KernelIdeal.R1

end
-- ==== Proof.KernelIdeal.R1.Frame.lean ====
import proofs.«135897_j31885837205965_1_alg».proof.Proof.KernelIdeal.R1.Base
import proofs.«135897_j31885837205965_1_alg».proof.Proof.LibCarry

noncomputable section

namespace Cert.KernelIdeal.R1

open Cert.KernelIdeal.Gen Cert.KernelIdeal.H64
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

/-- The three runs at point `t`, from the input's block. -/
abbrev rA (h0 : t.val % 32 = 0) :=
  kernelRun_A c (grid1.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x64 .f32) :=
  kernelRun_B c (grid1.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x64 .f32) :=
  kernelRun_C c (grid1.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x64 .f32)) : Vec F S8x64 .f32 := VS.read (Elt F) (VS.writes (Elt F) VS.junk L)

/-- The accumulator after the body at position `n`, over what the position before left. -/
def accNext (n : ℕ) (prev : Vec F S8x64 .f32) : Vec F S8x64 .f32 :=
  if hn : n < cfg1.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x64 .f32
  | 0 => accNext V c 0 (back [])
  | n + 1 => accNext V c (n + 1) (accAt n)

abbrev accPrev : Vec F S8x64 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x64 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec1 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg1 c where
  A w := V c (Pipeline.arrRef spec1 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec1 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt1 t) (fun _ =>
        iprop((dat V c).Φ t.succ ∗ (dat V c).owesAt () t.succ ∗ (dat V c).leavesExact 0 t ∗ (dat V c).leavesExact 1 t)) := by
  unfold bodyAt1
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x64.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x64.size VO_1 S8x64.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x64.size .rfl (fun K => (rB V c t h0 h1 _).2 _ Set.univ K) (tiled_B ..)

theorem body_obligation : BodyObligation (dat (F := F) V c) (defs₀ (F := F)) Variants.none () Set.univ := fun t => by
  rw [bigSep_W1, bigSep_W1]
  exact sound_body V c t

theorem hin : Pipeline.ΦA spec1 c ⊢ (dat V c).Φ 0 := .rfl

/-- After the last point the accumulator's contents are forgotten. -/
theorem hout : (dat V c).Φ (Fin.last cfg1.N) ⊢ Pipeline.ΦA spec1 c := by
  rw [PhiA_eq]
  refine (PhiS_some V c (Fin.last cfg1.N).val).trans ?_
  iintro ⟨H, Ho, Hg⟩
  isplitl [H Ho]
  · isplitl [H]; · iexact H
    iexact Ho
  iexact Hg

end Cert.KernelIdeal.R1

end
-- ==== Proof.KernelIdeal.R2.Base.lean ====
import proofs.«135897_j31885837205965_1_alg».proof.Proof.KernelIdeal.H16.Runs

noncomputable section

namespace Cert.KernelIdeal.R2

open Cert.KernelIdeal.Gen Cert.KernelIdeal.H16
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg2.N, cond_0 (grid2.coords t) ↔ t.val % 32 = 0 := by decide +kernel
theorem hcond_1 : ∀ t : Fin cfg2.N, cond_1 (grid2.coords t) ↔ t.val % 32 = 31 := by decide +kernel

theorem liveAt_0 : ∀ t : Fin cfg2.N, cfg2.idle 0 (grid2.coords t) = false := by decide +kernel
theorem idleAt_1 : ∀ t : Fin cfg2.N, ¬t.val % 32 = 31 → cfg2.idle 1 (grid2.coords t) = true := by decide +kernel
theorem noFlush_1 : ∀ t : Fin cfg2.N, ¬t.val % 32 = 31 → (cfg2.win 1).flush t = false := by decide +kernel
theorem liveAt_1 : ∀ t : Fin cfg2.N, t.val % 32 = 31 → cfg2.idle 1 (grid2.coords t) = false := by decide +kernel

abbrev VO_1 : View sig .tc .vmem S8x16 .f32 := (Memref.whole cc2_stg1_0 : Memref sig .tc .vmem S8x16 .f32).view
abbrev ms_0 (t : Fin cfg2.N) : Memref sig .tc .vmem S8x1024x16 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S8x16 .f32 := win2_1.stage (cfg2.slots t 1)
abbrev hs_1 (t : Fin cfg2.N) : (ms_1 t).IsWhole := hstage2_1 ((cfg2.slots t 1).cast nbuf2_1)
abbrev scM : Memref sig .tc .vmem S8x16 .f32 := Memref.whole cc2_scratch0
abbrev VS : View sig .tc .vmem S8x16 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The class invariant is the accumulator at some contents beside the rest. -/
theorem PhiA_eq (c : Dev nD) : (Pipeline.ΦA spec2 c : sProp 𝕄) = iprop(iprop((∃ d, owns (c : Thread nD τ) scM fullShare d) ∗ Pipeline.scopedRestBut (Ix := Unit) (Name := ℕ) (U := UR sig nD τ) (Lvl := ℕ) (Val := Elt F) spec2 c [cc2_scratch0]) ∗ ∃ r, prngReg c r) := by
  unfold Pipeline.ΦA; rw [Pipeline.scopedRest_split_of_list spec2 c [cc2_scratch0] (by decide) (by decide)]; simp only [scM, owns_whole]; rfl

end Cert.KernelIdeal.R2

end
-- ==== Proof.KernelIdeal.R2.Frame.lean ====
import proofs.«135897_j31885837205965_1_alg».proof.Proof.KernelIdeal.R2.Base
import proofs.«135897_j31885837205965_1_alg».proof.Proof.LibCarry

noncomputable section

namespace Cert.KernelIdeal.R2

open Cert.KernelIdeal.Gen Cert.KernelIdeal.H16
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

/-- The three runs at point `t`, from the input's block. -/
abbrev rA (h0 : t.val % 32 = 0) :=
  kernelRun_A c (grid2.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x16 .f32) :=
  kernelRun_B c (grid2.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x16 .f32) :=
  kernelRun_C c (grid2.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x16 .f32)) : Vec F S8x16 .f32 := VS.read (Elt F) (VS.writes (Elt F) VS.junk L)

/-- The accumulator after the body at position `n`, over what the position before left. -/
def accNext (n : ℕ) (prev : Vec F S8x16 .f32) : Vec F S8x16 .f32 :=
  if hn : n < cfg2.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x16 .f32
  | 0 => accNext V c 0 (back [])
  | n + 1 => accNext V c (n + 1) (accAt n)

abbrev accPrev : Vec F S8x16 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x16 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec2 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg2 c where
  A w := V c (Pipeline.arrRef spec2 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec2 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt2 t) (fun _ =>
        iprop((dat V c).Φ t.succ ∗ (dat V c).owesAt () t.succ ∗ (dat V c).leavesExact 0 t ∗ (dat V c).leavesExact 1 t)) := by
  unfold bodyAt2
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x16.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x16.size VO_1 S8x16.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x16.size .rfl (fun K => (rB V c t h0 h1 _).2 _ Set.univ K) (tiled_B ..)

theorem body_obligation : BodyObligation (dat (F := F) V c) (defs₀ (F := F)) Variants.none () Set.univ := fun t => by
  rw [bigSep_W2, bigSep_W2]
  exact sound_body V c t

theorem hin : Pipeline.ΦA spec2 c ⊢ (dat V c).Φ 0 := .rfl

/-- After the last point the accumulator's contents are forgotten. -/
theorem hout : (dat V c).Φ (Fin.last cfg2.N) ⊢ Pipeline.ΦA spec2 c := by
  rw [PhiA_eq]
  refine (PhiS_some V c (Fin.last cfg2.N).val).trans ?_
  iintro ⟨H, Ho, Hg⟩
  isplitl [H Ho]
  · isplitl [H]; · iexact H
    iexact Ho
  iexact Hg

end Cert.KernelIdeal.R2

end
-- ==== Proof.KernelIdeal.R3.Base.lean ====
import proofs.«135897_j31885837205965_1_alg».proof.Proof.KernelIdeal.H64.Runs

noncomputable section

namespace Cert.KernelIdeal.R3

open Cert.KernelIdeal.Gen Cert.KernelIdeal.H64
open Idealize.ShloMosaic Idealize.ShloMosaic.TcCoe
open Idealize.SL.RA Idealize.SL.BI
open Idealize.SL.BI.BIBase
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the region is entered with. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The two branches of the body at point `t`: the tile's position in its batch block. -/
theorem hcond_0 : ∀ t : Fin cfg3.N, cond_0 (grid3.coords t) ↔ t.val % 32 = 0 := by decide +kernel
theorem hcond_1 : ∀ t : Fin cfg3.N, cond_1 (grid3.coords t) ↔ t.val % 32 = 31 := by decide +kernel

theorem liveAt_0 : ∀ t : Fin cfg3.N, cfg3.idle 0 (grid3.coords t) = false := by decide +kernel
theorem idleAt_1 : ∀ t : Fin cfg3.N, ¬t.val % 32 = 31 → cfg3.idle 1 (grid3.coords t) = true := by decide +kernel
theorem noFlush_1 : ∀ t : Fin cfg3.N, ¬t.val % 32 = 31 → (cfg3.win 1).flush t = false := by decide +kernel
theorem liveAt_1 : ∀ t : Fin cfg3.N, t.val % 32 = 31 → cfg3.idle 1 (grid3.coords t) = false := by decide +kernel

abbrev VO_1 : View sig .tc .vmem S8x64 .f32 := (Memref.whole cc3_stg1_0 : Memref sig .tc .vmem S8x64 .f32).view
abbrev ms_0 (t : Fin cfg3.N) : Memref sig .tc .vmem S8x1024x64 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S8x64 .f32 := win3_1.stage (cfg3.slots t 1)
abbrev hs_1 (t : Fin cfg3.N) : (ms_1 t).IsWhole := hstage3_1 ((cfg3.slots t 1).cast nbuf3_1)
abbrev scM : Memref sig .tc .vmem S8x64 .f32 := Memref.whole cc3_scratch0
abbrev VS : View sig .tc .vmem S8x64 .f32 := scM.view

/-- The class invariant's remainder beside this region's accumulator. -/
abbrev rest (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The class invariant is the accumulator at some contents beside the rest. -/
theorem PhiA_eq (c : Dev nD) : (Pipeline.ΦA spec3 c : sProp 𝕄) = iprop(iprop((∃ d, owns (c : Thread nD τ) scM fullShare d) ∗ Pipeline.scopedRestBut (Ix := Unit) (Name := ℕ) (U := UR sig nD τ) (Lvl := ℕ) (Val := Elt F) spec3 c [cc3_scratch0]) ∗ ∃ r, prngReg c r) := by
  unfold Pipeline.ΦA; rw [Pipeline.scopedRest_split_of_list spec3 c [cc3_scratch0] (by decide) (by decide)]; simp only [scM, owns_whole]; rfl

end Cert.KernelIdeal.R3

end
-- ==== Proof.KernelIdeal.R3.Frame.lean ====
import proofs.«135897_j31885837205965_1_alg».proof.Proof.KernelIdeal.R3.Base
import proofs.«135897_j31885837205965_1_alg».proof.Proof.LibCarry

noncomputable section

namespace Cert.KernelIdeal.R3

open Cert.KernelIdeal.Gen Cert.KernelIdeal.H64
open Idealize.ShloMosaic Idealize.ShloMosaic.TcCoe
open Idealize.SL.RA Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg3.N)

/-- The three runs at point `t`, from the input's block. -/
abbrev rA (h0 : t.val % 32 = 0) :=
  kernelRun_A c (grid3.coords t) (ms_0 t) (hs_0 t) (ms_1 t) (hs_1 t) scM (Memref.isWhole_whole _) (iblk V c 0 t)
    ((hcond_0 t).mpr h0) (fun h => absurd ((hcond_1 t).mp h) (by omega))
abbrev rB (h0 : ¬t.val % 32 = 0) (h1 : ¬t.val % 32 = 31) (xs0 : Vec F S8x64 .f32) :=
  kernelRun_B c (grid3.coords t) (ms_0 t) (hs_0 t) (ms_1 t) (hs_1 t) scM (Memref.isWhole_whole _) (iblk V c 0 t) xs0
    (fun h => h0 ((hcond_0 t).mp h)) (fun h => h1 ((hcond_1 t).mp h))
abbrev rC (h1 : t.val % 32 = 31) (xs0 : Vec F S8x64 .f32) :=
  kernelRun_C c (grid3.coords t) (ms_0 t) (hs_0 t) (ms_1 t) (hs_1 t) scM (Memref.isWhole_whole _) (iblk V c 0 t) xs0
    (fun h => absurd ((hcond_0 t).mp h) (by omega)) ((hcond_1 t).mpr h1)

/-- A list of pieces read back from a buffer that held anything. -/
abbrev back (L : List (View.Piece (Elt F) S8x64 .f32)) : Vec F S8x64 .f32 := VS.read (Elt F) (VS.writes (Elt F) VS.junk L)

/-- The accumulator after the body at position `n`, over what the position before left. -/
def accNext (n : ℕ) (prev : Vec F S8x64 .f32) : Vec F S8x64 .f32 :=
  if hn : n < cfg3.N then
    if h0 : n % 32 = 0 then back (rA V c ⟨n, hn⟩ h0).1
    else if h1 : n % 32 = 31 then back (rC V c ⟨n, hn⟩ h1 prev).2.1 else back (rB V c ⟨n, hn⟩ h0 h1 prev).1
  else prev

/-- The accumulator after position `n`. -/
def accAt : ℕ → Vec F S8x64 .f32
  | 0 => accNext V c 0 (back [])
  | n + 1 => accNext V c (n + 1) (accAt n)

abbrev accPrev : Vec F S8x64 .f32 := accAt V c (t.val - 1)

theorem accAt_A (h0 : t.val % 32 = 0) : accAt V c t.val = back (rA V c t h0).1 := by
  obtain ⟨n, hn⟩ := t
  cases n with
  | zero => exact ((dif_pos hn).trans (dif_pos h0) : accNext V c 0 (back []) = _)
  | succ n => exact ((dif_pos hn).trans (dif_pos h0) : accNext V c (n + 1) (accAt V c n) = _)

theorem accAt_pos (h0 : ¬t.val % 32 = 0) : accAt V c t.val = accNext V c t.val (accPrev V c t) := by
  obtain ⟨n, hn⟩ := t
  cases n with
  | zero => exact absurd (Nat.zero_mod _) h0
  | succ n => rfl

theorem accAt_B (h0 : ¬t.val % 32 = 0) (h1 : ¬t.val % 32 = 31) : accAt V c t.val = back (rB V c t h0 h1 (accPrev V c t)).1 :=
  (accAt_pos V c t h0).trans ((dif_pos t.isLt).trans ((dif_neg h0).trans (dif_neg h1)))

theorem accAt_C (h1 : t.val % 32 = 31) : accAt V c t.val = back (rC V c t h1 (accPrev V c t)).2.1 :=
  (accAt_pos V c t (by omega)).trans ((dif_pos t.isLt).trans ((dif_neg (by omega)).trans (dif_pos h1)))

/-- The output block a last tile stores; elsewhere a value that is never consulted. -/
def outAt : Vec F S8x64 .f32 :=
  if h1 : t.val % 32 = 31 then VO_1.read (Elt F) (VO_1.writes (Elt F) VO_1.junk (rC V c t h1 (accPrev V c t)).1) else VO_1.read (Elt F) VO_1.junk

/-- The invariant before position `n`: the class's before the first point, afterwards the accumulator at `accAt (n - 1)`. -/
def PhiS : ℕ → sProp 𝕄
  | 0 => Pipeline.ΦA spec3 c
  | n + 1 => iprop(owns (c : Thread nD τ) scM fullShare (accAt V c n) ∗ rest c)

theorem PhiS_pos (n : ℕ) (hz : n ≠ 0) : PhiS V c n = iprop(owns (c : Thread nD τ) scM fullShare (accAt V c (n - 1)) ∗ rest c) := by
  cases n with
  | zero => exact absurd rfl hz
  | succ n => rfl

def dat : Dat τ (Elt F) Unit ℕ (UR sig nD τ) ℕ cfg3 c where
  A w := V c (Pipeline.arrRef spec3 w)
  after w t := match w with
    | ⟨0, _⟩ => iblk V c 0 t
    | ⟨1, _⟩ => outAt V c t
  Φ t := PhiS V c t.val
  q _ := fullShare
  owed _ := 0

theorem before_0 (d) : (dat V c).before 0 t d = iblk V c 0 t :=
  before_0_of V (dat V c) rfl (fun _ => rfl) t d

/-- The invariant yields the accumulator at something beside the rest, at every position. -/
theorem PhiS_some (n : ℕ) : PhiS V c n ⊢ iprop((∃ d, owns (c : Thread nD τ) scM fullShare d) ∗ rest c) := by
  cases n with
  | zero =>
    rw [show PhiS V c 0 = Pipeline.ΦA spec3 c from rfl, PhiA_eq]
    iintro ⟨⟨H, Ho⟩, Hg⟩
    isplitl [H]; · iexact H
    isplitl [Ho]; · iexact Ho
    iexact Hg
  | succ n =>
    rw [show PhiS V c (n + 1) = iprop(owns (c : Thread nD τ) scM fullShare (accAt V c n) ∗ rest c) from rfl]
    iintro ⟨H, HR⟩
    isplitl [H]; · iexists _; iexact H
    iexact HR

/-- The body at any point: the tile's position in its batch block decides the case; the invariant hands the body the
    accumulator and takes it back at this point's contents. -/
theorem sound_body :
    iprop((dat V c).Φ t.castSucc ∗ (dat V c).owesAt () t.castSucc
        ∗ (∃ d, owns (c : Thread nD τ) (ms_0 t) fullShare ((dat V c).before 0 t d))
        ∗ (∃ d, owns (c : Thread nD τ) (ms_1 t) fullShare ((dat V c).before 1 t d)))
      ⊢ wp frame (wpE (defs₀ (F := F)) Variants.none c none) Set.univ (bodyAt3 t) (fun _ =>
        iprop((dat V c).Φ t.succ ∗ (dat V c).owesAt () t.succ ∗ (dat V c).leavesExact 0 t ∗ (dat V c).leavesExact 1 t)) := by
  unfold bodyAt3
  simp only [before_0]
  rw [show (dat V c).owesAt () t.succ = (dat V c).owesAt () t.castSucc from rfl,
    show (dat V c).Φ t.succ = iprop(owns (c : Thread nD τ) scM fullShare (accAt V c t.val) ∗ rest c) from rfl,
    show (dat V c).Φ t.castSucc = PhiS V c t.val from rfl,
    show (dat V c).leavesExact 0 t = owns (c : Thread nD τ) (ms_0 t) fullShare (iblk V c 0 t) from by
      unfold Dat.leavesExact; rw [liveAt_0 t]; rfl]
  by_cases h0 : t.val % 32 = 0
  · rw [Dat.leavesExact_idle (dat V c) 1 t (idleAt_1 t (by omega)) (noFlush_1 t (by omega)), accAt_A V c t h0]
    exact Ring.wp_keep _ VS S8x64.size (PhiS_some V c _) (fun K => (rA V c t h0).2 _ Set.univ K) (tiled_A ..)
  · have hz : t.val ≠ 0 := fun h => h0 (by rw [h])
    rw [PhiS_pos V c _ hz]
    by_cases h1 : t.val % 32 = 31
    · rw [show (dat V c).leavesExact 1 t = owns (c : Thread nD τ) (ms_1 t) fullShare (outAt V c t) from by
        unfold Dat.leavesExact; rw [liveAt_1 t h1]; rfl, accAt_C V c t h1, show outAt V c t = _ from dif_pos h1]
      exact Ring.wp_store _ VS S8x64.size VO_1 S8x64.size (fun K => (rC V c t h1 _).2.2 Set.univ K) (tiled_C ..) (tiled_C_1 ..)
    · rw [Dat.leavesExact_idle (dat V c) 1 t (idleAt_1 t h1) (noFlush_1 t h1), accAt_B V c t h0 h1]
      exact Ring.wp_keep _ VS S8x64.size .rfl (fun K => (rB V c t h0 h1 _).2 _ Set.univ K) (tiled_B ..)

theorem body_obligation : BodyObligation (dat (F := F) V c) (defs₀ (F := F)) Variants.none () Set.univ := fun t => by
  rw [bigSep_W3, bigSep_W3]
  exact sound_body V c t

theorem hin : Pipeline.ΦA spec3 c ⊢ (dat V c).Φ 0 := .rfl

/-- After the last point the accumulator's contents are forgotten. -/
theorem hout : (dat V c).Φ (Fin.last cfg3.N) ⊢ Pipeline.ΦA spec3 c := by
  rw [PhiA_eq]
  refine (PhiS_some V c (Fin.last cfg3.N).val).trans ?_
  iintro ⟨H, Ho, Hg⟩
  isplitl [H Ho]
  · isplitl [H]; · iexact H
    iexact Ho
  iexact Hg

end Cert.KernelIdeal.R3

end
-- ==== Proof.KernelIdeal.Main.lean ====
import proofs.«135897_j31885837205965_1_alg».proof.Proof.KernelIdeal.R0.Frame
import proofs.«135897_j31885837205965_1_alg».proof.Proof.KernelIdeal.R1.Frame
import proofs.«135897_j31885837205965_1_alg».proof.Proof.KernelIdeal.R2.Frame
import proofs.«135897_j31885837205965_1_alg».proof.Proof.KernelIdeal.R3.Frame
import proofs.«135897_j31885837205965_1_alg».proof.Proof.Gen.KernelIdeal.Regions
import proofs.«135897_j31885837205965_1_alg».proof.Proof.LibRegionSeg

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- A reference that neither the host operations `ops` nor the update at `o` after them write keeps its contents. -/
theorem update_after {ops : List (HloOp τ sig (Elt F))} {Wr : List (Ref sig .tc)}
    (hw : ops.Forall fun op => op.writes ⊆ (Wr.map (Proc.devRef (τ := τ) .tc)).toFinset) {V : Valuation τ sig (Elt F)}
    {o r : Ref sig .tc} {x : (Proc.devRef (τ := τ) .tc o).ty.Contents (Elt F)} (h : r ∉ Wr) (h' : r ≠ o) :
    Function.update (StableHlo.after ops V) (Proc.devRef .tc o) x (Proc.devRef .tc r) = V (Proc.devRef .tc r) :=
  (Function.update_of_ne (StableHlo.devRef_ne_of_ne h') _ _).trans (StableHlo.after_of_writes_sub ops V hw h)

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Function.update (W1 m c) (Pipeline.arrRef spec0 1) ((R0.dat (V1 m) c).arrAt 1 cfg0.N)
theorem W2_of (c : Dev nD) (r : Ref sig .tc) (h : r ∉ hostOps0_W := by decide) (h' : r ≠ Pipeline.arrRef spec0 1 := by decide) :
    W2 m c (Proc.devRef .tc r) = W0 m c (Proc.devRef .tc r) := update_after hostOps0_writes h h'
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Function.update (W3 m c) (Pipeline.arrRef spec1 1) ((R1.dat (V3 m) c).arrAt 1 cfg1.N)
theorem W4_of (c : Dev nD) (r : Ref sig .tc) (h : r ∉ hostOps1_W := by decide) (h' : r ≠ Pipeline.arrRef spec1 1 := by decide) :
    W4 m c (Proc.devRef .tc r) = W2 m c (Proc.devRef .tc r) := update_after hostOps1_writes h h'
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Function.update (W5 m c) (Pipeline.arrRef spec2 1) ((R2.dat (V5 m) c).arrAt 1 cfg2.N)
theorem W6_of (c : Dev nD) (r : Ref sig .tc) (h : r ∉ hostOps2_W := by decide) (h' : r ≠ Pipeline.arrRef spec2 1 := by decide) :
    W6 m c (Proc.devRef .tc r) = W4 m c (Proc.devRef .tc r) := update_after hostOps2_writes h h'
abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Function.update (W7 m c) (Pipeline.arrRef spec3 1) ((R3.dat (V7 m) c).arrAt 1 cfg3.N)
theorem W8_of (c : Dev nD) (r : Ref sig .tc) (h : r ∉ hostOps3_W := by decide) (h' : r ≠ Pipeline.arrRef spec3 1 := by decide) :
    W8 m c (Proc.devRef .tc r) = W6 m c (Proc.devRef .tc r) := update_after hostOps3_writes h h'

theorem W2_main_arg1 (c : Dev nD) : W2 m c (Proc.devRef .tc main_arg1) = m ((c : Thread nD τ).loc main_arg1) :=
  W2_of m c main_arg1
theorem W4_main_arg2 (c : Dev nD) : W4 m c (Proc.devRef .tc main_arg2) = m ((c : Thread nD τ).loc main_arg2) :=
  (W4_of m c main_arg2).trans (W2_of m c main_arg2)
theorem W6_main_arg3 (c : Dev nD) : W6 m c (Proc.devRef .tc main_arg3) = m ((c : Thread nD τ).loc main_arg3) :=
  (W6_of m c main_arg3).trans <| (W4_of m c main_arg3).trans (W2_of m c main_arg3)
/-- No item writes an argument. -/
theorem W8_arg (c : Dev nD) {r : Ref sig .tc} (h : r ∈ [main_arg0, main_arg1, main_arg2, main_arg3]) :
    W8 m c (Proc.devRef .tc r) = m ((c : Thread nD τ).loc r) := by
  fin_cases h <;> exact (W8_of m c _).trans <| (W6_of m c _).trans <| (W4_of m c _).trans (W2_of m c _)

def pdats : (p : Fin 4) → (c : Dev nD) → Dat τ (Elt F) Unit ℕ (UR sig nD τ) ℕ (cfgs p) c
  | ⟨0, _⟩ => R0.dat (V1 m)
  | ⟨1, _⟩ => R1.dat (V3 m)
  | ⟨2, _⟩ => R2.dat (V5 m)
  | ⟨3, _⟩ => R3.dat (V7 m)
abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped := by decide) :
    Proc.devRef .tc b ∈ Pipeline.ucRefs τ sig :=
  Finset.mem_filter.mpr ⟨StableHlo.devRef_mem_tcRefs b, h⟩

def reg0 : Pipeline.RegionSeg (pcfgs (F := F)) adm (pdats m) () defs₀ 𝒱₀ L lv 0 :=
  .ofUpdate launch0 (1 : Fin 2) (by decide) (W1 m) (W2 m) (fun _ => rfl) (fun c => (R0.body_obligation (V1 m) c).loose)
    (fun _ _ => rfl) (fun _ _ => rfl) (fun _ _ => trivial) (fun _ _ => rfl) (R0.hin (V1 m)) (R0.hout (V1 m))

def reg1 : Pipeline.RegionSeg (pcfgs (F := F)) adm (pdats m) () defs₀ 𝒱₀ L lv 1 :=
  .ofUpdate launch1 (1 : Fin 2) (by decide) (W3 m) (W4 m) (fun _ => rfl) (fun c => (R1.body_obligation (V3 m) c).loose)
    (fun _ _ => rfl) (fun _ _ => rfl) (fun _ _ => trivial) (fun _ _ => rfl) (R1.hin (V3 m)) (R1.hout (V3 m))

def reg2 : Pipeline.RegionSeg (pcfgs (F := F)) adm (pdats m) () defs₀ 𝒱₀ L lv 2 :=
  .ofUpdate launch2 (1 : Fin 2) (by decide) (W5 m) (W6 m) (fun _ => rfl) (fun c => (R2.body_obligation (V5 m) c).loose)
    (fun _ _ => rfl) (fun _ _ => rfl) (fun _ _ => trivial) (fun _ _ => rfl) (R2.hin (V5 m)) (R2.hout (V5 m))

def reg3 : Pipeline.RegionSeg (pcfgs (F := F)) adm (pdats m) () defs₀ 𝒱₀ L lv 3 :=
  .ofUpdate launch3 (1 : Fin 2) (by decide) (W7 m) (W8 m) (fun _ => rfl) (fun c => (R3.body_obligation (V7 m) c).loose)
    (fun _ _ => rfl) (fun _ _ => rfl) (fun _ _ => trivial) (fun _ _ => rfl) (R3.hin (V7 m)) (R3.hout (V7 m))

abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m) ]
theorem main_run (c : Dev nD) : main (F := F) c = Pipeline.Seg.run (segs m) := (main_chain c).trans (by chain_rfl)

/-- Every weakly fair execution of @main terminates; each result ends as its region's final output array and each argument as launched. -/
theorem run_results (ρ : Dev nD → PrngReg) : θ_run defs (onTc (τ := τ) (main (F := F))) ⟨m, fun _ => 0, ρ⟩ (fun r => ∀ c : Dev nD,
      r.2.mem ((c.tc : Thread nD τ).loc main_v1) = (R0.dat (V1 m) c).arrAt 1 cfg0.N
      ∧ r.2.mem ((c.tc : Thread nD τ).loc main_v3) = (R1.dat (V3 m) c).arrAt 1 cfg1.N
      ∧ r.2.mem ((c.tc : Thread nD τ).loc main_v5) = (R2.dat (V5 m) c).arrAt 1 cfg2.N
      ∧ r.2.mem ((c.tc : Thread nD τ).loc main_v7) = (R3.dat (V7 m) c).arrAt 1 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v1)).trans <| (W8_of m c main_v1).trans <| (W6_of m c main_v1).trans <| (W4_of m c main_v1).trans (Function.update_self ..),
       (h c _ (mem_uc main_v3)).trans <| (W8_of m c main_v3).trans <| (W6_of m c main_v3).trans (Function.update_self ..),
       (h c _ (mem_uc main_v5)).trans <| (W8_of m c main_v5).trans (Function.update_self ..),
       (h c _ (mem_uc main_v7)).trans (Function.update_self ..),
       (h c _ (mem_uc main_arg0)).trans (W8_arg m c (by decide)), (h c _ (mem_uc main_arg1)).trans (W8_arg m c (by decide)),
       (h c _ (mem_uc main_arg2)).trans (W8_arg m c (by decide)), (h c _ (mem_uc main_arg3)).trans (W8_arg m c (by decide))⟩)

/-- Every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2.2.2) (run_results m ρ)

end Cert.KernelIdeal.Run

end
-- ==== Proof.Spec.lean ====
import Idealize.ShloMosaic.PureOps.Ideal
import Idealize.ShloMosaic.Lib.ValueIdx

noncomputable section

namespace Cert.Spec

open Idealize.ShloMosaic

/-- A patch's key: the sum of its entries as a 32-bit integer. -/
def key {L : ℕ} (x : Fin L → EReal) : BitVec 32 := Ideal.fptosi 32 (∑ l : Fin L, x l)

/-- 1 if the key `n` is `k`, else 0. -/
def hit (n k : BitVec 32) : EReal := (((BitVec.setWidth 32 (IntOp.cmpi .eq n k)).toInt : ℝ) : EReal)

/-- The number of the `P` patches with key `k`. -/
def count {P L : ℕ} (x : Fin P → Fin L → EReal) (k : Fin L) : EReal :=
  ∑ q : Fin P, hit (key (x q)) (BitVec.ofNat 32 k.val)

/-- The count over 32768. -/
def prob {P L : ℕ} (x : Fin P → Fin L → EReal) (k : Fin L) : EReal :=
  Ideal.div (count x k) (Ideal.ofBits .f32 0x47000000#32)

/-- Bin `k`'s share of the bins' total. -/
def hist {P L : ℕ} (x : Fin P → Fin L → EReal) (k : Fin L) : EReal :=
  Ideal.div (prob x k) (∑ k' : Fin L, prob x k')

abbrev A16 : Shape := ⟨3, ![16, 32768, 16]⟩
abbrev O16 : Shape := ⟨2, ![16, 16]⟩
abbrev A64 : Shape := ⟨3, ![16, 32768, 64]⟩
abbrev O64 : Shape := ⟨2, ![16, 64]⟩

/-- Row `b` of the result is the histogram of row `b`'s 32768 patches. -/
def G16 (X : A16.Idx → EReal) : O16.Idx → EReal :=
  fun j => hist (P := 32768) (L := 16) (fun q l => X (ValueIdx.ix3 (j 0) q l)) (j 1)

def G64 (X : A64.Idx → EReal) : O64.Idx → EReal :=
  fun j => hist (P := 32768) (L := 64) (fun q l => X (ValueIdx.ix3 (j 0) q l)) (j 1)

end Cert.Spec

end
-- ==== Proof.LibLayout.lean ====
import proofs.«135897_j31885837205965_1_alg».proof.Proof.Spec
import Idealize.ShloMosaic.PureOps.Ideal.Laws
import Idealize.ShloMosaic.Lib.Pipeline.Value

noncomputable section

namespace Cert.Lib

open Idealize.ShloMosaic Idealize.ShloMosaic.ValueIdx

variable {α : Type} {a b c : ℕ}

/-- Appending a unit axis keeps the row-major position. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_three, Shape.rowMajor_val_two]
    show i.val * b + j.val = (i.val * b + j.val) * 1 + u.val
    omega)

theorem shapeCast_a_a1_apply (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- On an axis the broadcast keeps, the operand's coordinate is the result's, also when the axis has one entry. -/
theorem kept_axis (i : Fin a) : i.val = if a = 1 then 0 else i.val := by
  split <;> omega

/-- Broadcasting along a trailing unit axis reads the operand's one entry of `(i, j)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) :=
  broadcastTo_apply v h (ix3 i j l) (ix3 i j (0 : Fin 1)) fun
    | ⟨0, _⟩ => kept_axis i
    | ⟨1, _⟩ => kept_axis j
    | ⟨2, _⟩ => rfl

theorem broadcastTo_a1_ab_apply (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h (ix2 i l) (ix2 i (0 : Fin 1)) fun
    | ⟨0, _⟩ => kept_axis i
    | ⟨1, _⟩ => rfl

/-- A broadcast zero, cast to its own shape, is zero everywhere. -/
theorem zeros_apply {s : Shape} {h : s.ShapeCasts s} (j : s.Idx) :
    (shapeCast s (broadcast s (Scalar.ofBits .f32 0x00000000#32)) h : FVec Ideal s .f32) j = 0 :=
  (congrFun (shapeCast_self _ _) j).trans Ideal.ofBits_zero_f32

section Sums
variable {z : BitVec FTy.f32.bits} {hφ : FKind.Formats .f32} {hz : z = FKind.add.neutral .f32 hφ}

/-- A sum over one axis is the sum over that axis's coordinate, the other coordinates held. -/
theorem sum_abc_last (src : FVec Ideal ⟨3, ![a, b, c]⟩ .f32) (h : (⟨3, ![a, b, c]⟩ : Shape).Reduces [2] ⟨2, ![a, b]⟩)
    (i : Fin a) (j : Fin b) :
    multiReduction (F := Ideal) .add [2] ⟨2, ![a, b]⟩ src z h hφ hz (ix2 i j) = ∑ l : Fin c, src (ix3 i j l) :=
  (Ideal.multiReduction_add_single src z h hφ hz _).trans <| Finset.sum_congr rfl fun l _ =>
    congrArg src (funext fun ax => Fin.ext (match ax with | ⟨0, _⟩ => rfl | ⟨1, _⟩ => rfl | ⟨2, _⟩ => rfl))

theorem sum_abc_mid (src : FVec Ideal ⟨3, ![a, b, c]⟩ .f32) (h : (⟨3, ![a, b, c]⟩ : Shape).Reduces [1] ⟨2, ![a, c]⟩)
    (i : Fin a) (l : Fin c) :
    multiReduction (F := Ideal) .add [1] ⟨2, ![a, c]⟩ src z h hφ hz (ix2 i l) = ∑ j : Fin b, src (ix3 i j l) :=
  (Ideal.multiReduction_add_single src z h hφ hz _).trans <| Finset.sum_congr rfl fun j _ =>
    congrArg src (funext fun ax => Fin.ext (match ax with | ⟨0, _⟩ => rfl | ⟨1, _⟩ => rfl | ⟨2, _⟩ => rfl))

theorem sum_ab_last (src : FVec Ideal ⟨2, ![a, b]⟩ .f32) (h : (⟨2, ![a, b]⟩ : Shape).Reduces [1] ⟨1, ![a]⟩) (i : Fin a) :
    multiReduction (F := Ideal) .add [1] ⟨1, ![a]⟩ src z h hφ hz (ix1 i) = ∑ l : Fin b, src (ix2 i l) :=
  (Ideal.multiReduction_add_single src z h hφ hz _).trans <| Finset.sum_congr rfl fun l _ =>
    congrArg src (funext fun ax => Fin.ext (match ax with | ⟨0, _⟩ => rfl | ⟨1, _⟩ => rfl))

variable {z' : BitVec FTy.f32.bits} {hφ' : FKind.Formats .f32} {hz' : z' = FKind.add.neutral .f32 hφ'}

/-- The histogram's update at row `i`, bin `k`: the accumulator plus the number of the `b` patches whose key is `k`. -/
theorem histStep_apply (x : Vec Ideal ⟨3, ![a, b, c]⟩ .f32) (acc : Vec Ideal ⟨2, ![a, c]⟩ .f32)
    {h1 : (⟨3, ![a, b, c]⟩ : Shape).ShapeCasts ⟨3, ![a, b, c]⟩} {h2 : (⟨3, ![a, b, c]⟩ : Shape).Reduces [2] ⟨2, ![a, b]⟩}
    {h3 : (⟨2, ![a, b]⟩ : Shape).ShapeCasts ⟨3, ![a, b, 1]⟩} {h4 : (⟨3, ![a, b, 1]⟩ : Shape).ShapeCasts ⟨3, ![a, b, 1]⟩}
    {h5 : (⟨3, ![a, b, 1]⟩ : Shape).Broadcasts ⟨3, ![a, b, c]⟩} {h6 : (⟨3, ![a, b, c]⟩ : Shape).Iotas .tc 32 [2]}
    {h7 : (⟨3, ![a, b, c]⟩ : Shape).Reduces [1] ⟨2, ![a, c]⟩} {h8 : (⟨2, ![a, c]⟩ : Shape).ShapeCasts ⟨2, ![a, c]⟩}
    {h9 : 1 < 32} (i : Fin a) (k : Fin c) :
    shapeCast ⟨2, ![a, c]⟩ (addf (F := Ideal) acc (multiReduction (F := Ideal) .add [1] ⟨2, ![a, c]⟩
      (sitofp .f32 (extui 32 (cmpi .eq
        (broadcastTo ⟨3, ![a, b, c]⟩ (shapeCast ⟨3, ![a, b, 1]⟩ (shapeCast ⟨3, ![a, b, 1]⟩
          (fptosi 32 (multiReduction (F := Ideal) .add [2] ⟨2, ![a, b]⟩ (shapeCast ⟨3, ![a, b, c]⟩ x h1) z h2 hφ hz)) h3) h4) h5)
        (iota .tc ⟨3, ![a, b, c]⟩ 32 [2] h6)) h9)) z' h7 hφ' hz')) h8 (ix2 i k)
      = acc (ix2 i k) + ∑ q : Fin b, Cert.Spec.hit (Cert.Spec.key fun l => x (ix3 i q l)) (BitVec.ofNat 32 k.val) := by
  refine (congrFun (shapeCast_self _ _) _).trans (congrArg (acc (ix2 i k) + ·) ?_)
  refine (sum_abc_mid _ _ i k).trans (Finset.sum_congr rfl fun q _ => ?_)
  show Cert.Spec.hit _ _ = _
  refine congrArg₂ Cert.Spec.hit ?_ (iota_single_apply _ _ _ _ _ _)
  refine (broadcastTo_ab1_abc_apply _ _ i q k).trans ((congrFun (shapeCast_self _ _) _).trans ?_)
  refine (shapeCast_ab_ab1_apply _ _ i q 0).trans (congrArg (Ideal.fptosi 32) ?_)
  exact (sum_abc_last _ _ i q).trans (Finset.sum_congr rfl fun l _ => congrFun (shapeCast_self _ _) _)

/-- Each row divided by its own sum, at `(i, k)`. -/
theorem div_rowSum_apply (v : FVec Ideal ⟨2, ![a, c]⟩ .f32) {h1 : (⟨2, ![a, c]⟩ : Shape).Reduces [1] ⟨1, ![a]⟩}
    {h2 : (⟨1, ![a]⟩ : Shape).ShapeCasts ⟨2, ![a, 1]⟩} {h3 : (⟨2, ![a, 1]⟩ : Shape).Broadcasts ⟨2, ![a, c]⟩} (i : Fin a) (k : Fin c) :
    divf v (broadcastTo ⟨2, ![a, c]⟩ (shapeCast ⟨2, ![a, 1]⟩ (multiReduction (F := Ideal) .add [1] ⟨1, ![a]⟩ v z h1 hφ hz) h2) h3) (ix2 i k)
      = Ideal.div (v (ix2 i k)) (∑ k' : Fin c, v (ix2 i k')) :=
  congrArg (Ideal.div (v (ix2 i k))) <|
    (broadcastTo_a1_ab_apply _ _ i k).trans <| (shapeCast_a_a1_apply _ _ i 0).trans <| sum_ab_last _ _ i

end Sums

end Cert.Lib

end
-- ==== Proof.KernelIdeal.H16.Pay.lean ====
import proofs.«135897_j31885837205965_1_alg».proof.Proof.Gen.KernelIdeal.Skeleton
import proofs.«135897_j31885837205965_1_alg».proof.Proof.LibLayout

noncomputable section

namespace Cert.KernelIdeal.H16

open Cert.KernelIdeal Cert.KernelIdeal.Gen
open Idealize.ShloMosaic Idealize.ShloMosaic.ValueIdx

theorem pay1_apply (j : S8x16.Idx) : (k0_pay1 (F := Ideal)) j = 0 :=
  Cert.Lib.zeros_apply j

theorem pay2_apply (x : Vec Ideal S8x1024x16 .f32) (acc : Vec Ideal S8x16 .f32) (r : Fin 8) (k : Fin 16) :
    k0_pay2 (F := Ideal) x acc (ix2 r k)
      = acc (ix2 r k) + ∑ q : Fin 1024, Cert.Spec.hit (Cert.Spec.key (fun l : Fin 16 => x (ix3 r q l))) (BitVec.ofNat 32 k.val) :=
  Cert.Lib.histStep_apply x acc r k

theorem pay3_apply (acc : Vec Ideal S8x16 .f32) (r : Fin 8) (k : Fin 16) :
    k0_pay3 (F := Ideal) acc (ix2 r k)
      = Ideal.div (Ideal.div (acc (ix2 r k)) (Ideal.ofBits .f32 0x47000000#32))
          (∑ k' : Fin 16, Ideal.div (acc (ix2 r k')) (Ideal.ofBits .f32 0x47000000#32)) :=
  Cert.Lib.div_rowSum_apply _ r k

end Cert.KernelIdeal.H16

end
-- ==== Proof.KernelIdeal.H16.Pieces.lean ====
import proofs.«135897_j31885837205965_1_alg».proof.Proof.KernelIdeal.H16.Runs
import Idealize.ShloMosaic.Lib.Pipeline.Value

noncomputable section

namespace Cert.KernelIdeal.H16

open Cert.KernelIdeal.Gen
open Idealize.ShloMosaic

variable {F : FTy → Type} [FloatOps F]
variable (c : Dev nD) (i : grid0.Coords) (arg2 : Memref sig .tc .vmem S8x1024x16 .f32) (harg2 : arg2.IsWhole)
  (arg3 : Memref sig .tc .vmem S8x16 .f32) (harg3 : arg3.IsWhole) (arg4 : Memref sig .tc .vmem S8x16 .f32) (harg4 : arg4.IsWhole)
  (x0 : Vec F S8x1024x16 .f32) (xs0 : Vec F S8x16 .f32) (hp : cond_0 i) (hn : ¬cond_0 i) (hq : cond_1 i) (hm : ¬cond_1 i)
  {κ : Kind} {sp : Space} (v : View sig κ sp S8x16 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile leaves the update of the reset's zeros by the tile. -/
theorem back_A : v.read (Elt F) (v.writes (Elt F) v.junk (kernelRun_A c i arg2 harg2 arg3 harg3 arg4 harg4 x0 hp hm).1) = k0_pay2 x0 (k0_pay1 (F := F)) := by
  rw [View.read_writes_eq_canon _ _ _ (View.cover_of_tiledL _ S8x16.size (tiled_A c i arg2 harg2 arg3 harg3 arg4 harg4 x0 hp hm))]
  unfold kernelRun_A
  dsimp only
  sl_unfold_words
  rw [View.canon_cons_unit_zero (S := S8x16) hz2, View.readCov_unit_zero (S := S8x16) _ hz2]
  simp only [View.readAt_eq_ld, harg2.read_unread, View.ld_unit_zero (S := S8x1024x16) hz3]

/-- A later tile leaves the update of the accumulator by the tile. -/
theorem back_B : v.read (Elt F) (v.writes (Elt F) v.junk (kernelRun_B c i arg2 harg2 arg3 harg3 arg4 harg4 x0 xs0 hn hm).1) = k0_pay2 x0 xs0 := by
  rw [View.read_writes_eq_canon _ _ _ (View.cover_of_tiledL _ S8x16.size (tiled_B c i arg2 harg2 arg3 harg3 arg4 harg4 x0 xs0 hn hm))]
  unfold kernelRun_B
  dsimp only
  sl_unfold_words
  rw [View.canon_unit_zero hz2]
  simp only [View.readAt_eq_ld, harg2.read_unread, harg4.read_unread, View.ld_unit_zero (S := S8x1024x16) hz3, View.ld_unit_zero (S := S8x16) hz2]

theorem back_C : v.read (Elt F) (v.writes (Elt F) v.junk (kernelRun_C c i arg2 harg2 arg3 harg3 arg4 harg4 x0 xs0 hn hq).2.1) = k0_pay2 x0 xs0 := by
  rw [View.read_writes_eq_canon _ _ _ (View.cover_of_tiledL _ S8x16.size (tiled_C c i arg2 harg2 arg3 harg3 arg4 harg4 x0 xs0 hn hq))]
  unfold kernelRun_C
  dsimp only
  sl_unfold_words
  rw [View.canon_unit_zero hz2]
  simp only [View.readAt_eq_ld, harg2.read_unread, harg4.read_unread, View.ld_unit_zero (S := S8x1024x16) hz3, View.ld_unit_zero (S := S8x16) hz2]

/-- A last tile stores the finalisation of the updated accumulator. -/
theorem out_C : v.read (Elt F) (v.writes (Elt F) v.junk (kernelRun_C c i arg2 harg2 arg3 harg3 arg4 harg4 x0 xs0 hn hq).1)
    = k0_pay3 (k0_pay2 x0 xs0) := by
  rw [View.read_writes_eq_canon _ _ _ (View.cover_of_tiledL _ S8x16.size (tiled_C_1 c i arg2 harg2 arg3 harg3 arg4 harg4 x0 xs0 hn hq))]
  unfold kernelRun_C
  dsimp only
  sl_unfold_words
  rw [View.canon_unit_zero hz2]
  simp only [View.readAt_eq_ld, harg2.read_unread, harg4.read_unread, View.ld_unit_zero (S := S8x1024x16) hz3, View.ld_unit_zero (S := S8x16) hz2, View.readCov_unit_zero (S := S8x16) _ hz2]

end Cert.KernelIdeal.H16

end
-- ==== Proof.KernelIdeal.R0.Blk.lean ====
import proofs.«135897_j31885837205965_1_alg».proof.Proof.KernelIdeal.R0.Base
import Idealize.ShloMosaic.Lib.Pipeline.Value
import Idealize.ShloMosaic.Lib.ValueIdx

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem row_lt (t : Fin cfg0.N) (r : Fin 8) : 8 * (t.val / 32) + r.val < 16 := by
  have := t.isLt; have : cfg0.N = 64 := N_0; omega
theorem patch_lt (t : Fin cfg0.N) (q : Fin 1024) : 1024 * (t.val % 32) + q.val < 32768 := by omega

variable (V : (c : Dev nD) → (b : Ref sig .tc) → Buf (Elt F) ((c : Thread nD τ).loc b))

theorem idx_in : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, win0_0.index t (0 : Fin 3) = t.val / 32 ∧ win0_0.index t (1 : Fin 3) = t.val % 32
    ∧ win0_0.index t (2 : Fin 3) = 0)

theorem idx_out : ∀ t : Fin cfg0.N, win0_1.index t (0 : Fin 2) = t.val / 32 ∧ win0_1.index t (1 : Fin 2) = 0 :=
  (by decide +kernel : ∀ t : Fin grid0.N, win0_1.index t (0 : Fin 2) = t.val / 32 ∧ win0_1.index t (1 : Fin 2) = 0)

/-- Entry (r, q, l) of the input block at point `t` is the array's entry (8·(t/32) + r, 1024·(t%32) + q, l). -/
theorem iblk_apply (c : Dev nD) (t : Fin cfg0.N) (r : Fin 8) (q : Fin 1024) (l : Fin 16) :
    (iblk V c 0 t : Vec F S8x1024x16 .f32) (ix3 r q l)
      = (V c main_v0 : S16x32768x16.Idx → Elt F .f32) (ix3 ⟨8 * (t.val / 32) + r.val, row_lt t r⟩ ⟨1024 * (t.val % 32) + q.val, patch_lt t q⟩ l) := by
  obtain ⟨e0, e1, e2⟩ := idx_in t
  refine congrArg (V c main_v0 : S16x32768x16.Idx → Elt F .f32) (funext fun a => Fin.ext ?_)
  match a with
  | ⟨0, _⟩ => show win0_0.index t (0 : Fin 3) * 8 + 1 * r.val = 8 * (t.val / 32) + r.val; omega
  | ⟨1, _⟩ => show win0_0.index t (1 : Fin 3) * 1024 + 1 * q.val = 1024 * (t.val % 32) + q.val; omega
  | ⟨2, _⟩ => show win0_0.index t (2 : Fin 3) * 16 + 1 * l.val = l.val; omega

/-- Entry (r, k) of the output block at point `t`, read off a whole output array `G`, is G's entry (8·(t/32) + r, k). -/
theorem oblk_read_apply (c : Dev nD) (t : Fin cfg0.N) (G : S16x16.Idx → Elt F .f32) (r : Fin 8) (k : Fin 16) :
    (((cfg0.win 1).blk t).view.read (Elt F) (G : Buf (Elt F) ((cfg0.win 1).arr.view.loc (c.tc : Thread nD τ))) : Vec F S8x16 .f32) (ix2 r k)
      = G (ix2 ⟨8 * (t.val / 32) + r.val, row_lt t r⟩ k) := by
  obtain ⟨e0, e1⟩ := idx_out t
  refine congrArg G (funext fun a => Fin.ext ?_)
  match a with
  | ⟨0, _⟩ => show win0_1.index t (0 : Fin 2) * 8 + 1 * r.val = 8 * (t.val / 32) + r.val; omega
  | ⟨1, _⟩ => show win0_1.index t (1 : Fin 2) * 16 + 1 * k.val = k.val; omega

theorem mem_oblk (t : Fin cfg0.N) (i : S16x16.Idx) :
    i ∈ ((cfg0.win 1).blk t).view.set
      ↔ ∀ a : Fin 2, win0_1.index t a * S8x16.size a ≤ (i a).val ∧ (i a).val < win0_1.index t a * S8x16.size a + S8x16.size a := by
  show i ∈ ((View.whole main_v1).slice (win0_1.rect t)).set ↔ _
  rw [View.set_slice_whole, Rect.mem_set_unit]
  exact Iff.rfl

/-- Row 8·b + r of the output lies in the block of the last patch tile of row block b. -/
theorem out_cover (c : Dev nD) (i : ((cfg0.win 1).arr.view.loc (c.tc : Thread nD τ)).2.ty.Idx) :
    ∃ t : Fin cfg0.N, (cfg0.win 1).flush t = true ∧ i ∈ ((cfg0.win 1).blk t).view.set := by
  change S16x16.Idx at i
  have hN : cfg0.N = 64 := N_0
  have h0 : (i 0).val < 16 := (i 0).isLt
  have h1 : (i 1).val < 16 := (i 1).isLt
  let t : Fin cfg0.N := ⟨32 * ((i 0).val / 8) + 31, by omega⟩
  have ht : t.val = 32 * ((i 0).val / 8) + 31 := rfl
  obtain ⟨e0, e1⟩ := idx_out t
  refine ⟨t, (flush0_1 t).mpr (by omega), (mem_oblk t i).2 fun a => ?_⟩
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 16 ≤ (i 1).val ∧ (i 1).val < win0_1.index t (1 : Fin 2) * 16 + 16; omega

end Cert.KernelIdeal.R0

end
-- ==== Proof.LibPartialSum.lean ====
import Mathlib.Algebra.BigOperators.Fin
import Mathlib.Data.EReal.Basic

noncomputable section

namespace Cert.Lib

/-- The sum of the first `n` of 32768 terms. -/
def psum (f : Fin 32768 → EReal) (n : ℕ) : EReal :=
  ∑ Q ∈ Finset.range n, if h : Q < 32768 then f ⟨Q, h⟩ else 0

theorem psum_zero (f : Fin 32768 → EReal) : psum f 0 = 0 :=
  Finset.sum_range_zero _

/-- One more tile of 1024 terms. -/
theorem psum_tile (f : Fin 32768 → EReal) (p : ℕ) (hp : p < 32) :
    psum f (1024 * (p + 1)) = psum f (1024 * p) + ∑ q : Fin 1024, f ⟨1024 * p + q.val, by omega⟩ := by
  unfold psum
  rw [show 1024 * (p + 1) = 1024 * p + 1024 from by omega, Finset.sum_range_add]
  refine congrArg (_ + ·) ?_
  rw [← Fin.sum_univ_eq_sum_range (fun x => if h : 1024 * p + x < 32768 then f ⟨1024 * p + x, h⟩ else 0) 1024]
  exact Finset.sum_congr rfl fun q _ => dif_pos (by have := q.isLt; omega)

theorem psum_full (f : Fin 32768 → EReal) : psum f 32768 = ∑ Q : Fin 32768, f Q := by
  unfold psum
  rw [← Fin.sum_univ_eq_sum_range (fun Q => if h : Q < 32768 then f ⟨Q, h⟩ else 0) 32768]
  exact Finset.sum_congr rfl fun Q _ => dif_pos Q.isLt

end Cert.Lib

end
-- ==== Proof.KernelIdeal.R0.Value.lean ====
import proofs.«135897_j31885837205965_1_alg».proof.Proof.KernelIdeal.R0.Frame
import proofs.«135897_j31885837205965_1_alg».proof.Proof.KernelIdeal.H16.Pay
import proofs.«135897_j31885837205965_1_alg».proof.Proof.KernelIdeal.H16.Pieces
import proofs.«135897_j31885837205965_1_alg».proof.Proof.KernelIdeal.R0.Blk
import proofs.«135897_j31885837205965_1_alg».proof.Proof.LibPartialSum
import proofs.«135897_j31885837205965_1_alg».proof.Proof.Spec
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.R0

open Cert.KernelIdeal.Gen Cert.KernelIdeal.H16
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg0.N)

abbrev xarr : S16x32768x16.Idx → EReal := V c main_v0

/-- For row `r` of point `t`'s batch block and bin `k`: 1 at the patches of that row whose key is `k`, else 0. -/
abbrev term (r : Fin 8) (k : Fin 16) : Fin 32768 → EReal :=
  fun Q => Cert.Spec.hit (Cert.Spec.key fun l : Fin 16 => xarr V c (ix3 ⟨8 * (t.val / 32) + r.val, row_lt t r⟩ Q l)) (BitVec.ofNat 32 k.val)

/-- Every point updates the accumulator by its tile; a first tile updates zeros. -/
theorem accAt_upd : accAt V c t.val
    = k0_pay2 (F := Ideal) (iblk V c 0 t) (if t.val % 32 = 0 then k0_pay1 (F := Ideal) else accPrev V c t) := by
  by_cases h0 : t.val % 32 = 0
  · rw [if_pos h0]; exact (accAt_A V c t h0).trans (back_A ..)
  · rw [if_neg h0]
    by_cases h1 : t.val % 32 = 31
    · exact (accAt_C V c t h1).trans (back_C ..)
    · exact (accAt_B V c t h0 h1).trans (back_B ..)

/-- One more tile: the count over the first 1024·(p + 1) patches from the count over the first 1024·p
    (the block's patch q is the array's patch 1024·p + q). -/
theorem accAt_step (r : Fin 8) (k : Fin 16)
    (ih : (if t.val % 32 = 0 then k0_pay1 (F := Ideal) else accPrev V c t) (ix2 r k) = Cert.Lib.psum (term V c t r k) (1024 * (t.val % 32))) :
    accAt V c t.val (ix2 r k) = Cert.Lib.psum (term V c t r k) (1024 * (t.val % 32 + 1)) := by
  refine (congrFun (accAt_upd V c t) (ix2 r k)).trans ((pay2_apply _ _ r k).trans ?_)
  rw [ih]
  refine ((Cert.Lib.psum_tile (term V c t r k) (t.val % 32) (Nat.mod_lt _ (by decide))).trans
    (congrArg (Cert.Lib.psum (term V c t r k) (1024 * (t.val % 32)) + ·) (Finset.sum_congr rfl fun q _ =>
      congrArg (fun g : Fin 16 → EReal => Cert.Spec.hit (Cert.Spec.key g) (BitVec.ofNat 32 k.val))
        (funext fun l => (iblk_apply V c t r q l).symm)))).symm

/-- After point `t`, row `r`, bin `k` counts the patches below 1024·(t%32 + 1) of array row 8·(t/32) + r with key `k`. -/
theorem accAt_eq (r : Fin 8) (k : Fin 16) : ∀ (n : ℕ) (t : Fin cfg0.N), t.val = n →
    accAt V c t.val (ix2 r k) = Cert.Lib.psum (term V c t r k) (1024 * (t.val % 32 + 1)) := by
  intro n
  induction n with
  | zero =>
    intro t ht
    refine accAt_step V c t r k ?_
    rw [if_pos (by rw [ht]), pay1_apply, show 1024 * (t.val % 32) = 0 by omega, Cert.Lib.psum_zero]
  | succ n ih =>
    intro t ht
    refine accAt_step V c t r k ?_
    by_cases h0 : t.val % 32 = 0
    · rw [if_pos h0, pay1_apply, show 1024 * (t.val % 32) = 0 by omega, Cert.Lib.psum_zero]
    · have hlt : t.val - 1 < cfg0.N := Nat.lt_of_le_of_lt (Nat.sub_le _ _) t.isLt
      rw [if_neg h0]
      refine (ih ⟨t.val - 1, hlt⟩ (by show t.val - 1 = n; omega)).trans ?_
      rw [show term V c ⟨t.val - 1, hlt⟩ r k = term V c t r k from funext fun Q =>
        congrArg (fun R => Cert.Spec.hit (Cert.Spec.key fun l : Fin 16 => xarr V c (ix3 R Q l)) (BitVec.ofNat 32 k.val))
          (Fin.ext (by show 8 * ((t.val - 1) / 32) + r.val = 8 * (t.val / 32) + r.val; omega))]
      exact congrArg (Cert.Lib.psum (term V c t r k)) (by show 1024 * ((t.val - 1) % 32 + 1) = 1024 * (t.val % 32); omega)

/-- At a last tile the counts are over all 32768 patches, and their finalisation is the histogram of array row 8·(t/32) + r. -/
theorem block_value (h1 : t.val % 32 = 31) (r : Fin 8) (k : Fin 16) :
    k0_pay3 (F := Ideal) (accAt V c t.val) (ix2 r k)
      = Cert.Spec.G16 (xarr V c) (ix2 ⟨8 * (t.val / 32) + r.val, row_lt t r⟩ k) := by
  have hacc : ∀ k' : Fin 16, accAt V c t.val (ix2 r k')
      = Cert.Spec.count (fun q l => xarr V c (ix3 ⟨8 * (t.val / 32) + r.val, row_lt t r⟩ q l)) k' := fun k' => by
    refine (accAt_eq V c r k' t.val t rfl).trans ?_
    rw [show 1024 * (t.val % 32 + 1) = 32768 by omega]
    exact Cert.Lib.psum_full _
  refine (pay3_apply (accAt V c t.val) r k).trans ?_
  show _ = Cert.Spec.hist (fun q l => xarr V c (ix3 ⟨8 * (t.val / 32) + r.val, row_lt t r⟩ q l)) k
  unfold Cert.Spec.hist Cert.Spec.prob
  rw [hacc k]
  exact congrArg (Ideal.div _) (Finset.sum_congr rfl fun k' _ => by rw [hacc k'])

/-- A written-back point writes its block of the histogram of the input array. -/
theorem flushed_eq (hf : (cfg0.win 1).flush t = true) :
    (dat (F := Ideal) V c).flushed 1 t = ((cfg0.win 1).blk t).view.read (Elt Ideal) (Cert.Spec.G16 (V c main_v0)) := by
  have h1 : t.val % 32 = 31 := (flush0_1 t).mp hf
  show (cfg0.win 1).cut (grid0.coords t) (outAt V c t) = _
  rw [show outAt V c t = k0_pay3 (F := Ideal) (accAt V c t.val) from
    (dif_pos h1).trans ((out_C ..).trans (congrArg (k0_pay3 (F := Ideal)) ((accAt_C V c t h1).trans (back_C ..)).symm))]
  funext y
  obtain ⟨r, k, rfl⟩ : ∃ (r : Fin 8) (k : Fin 16), y = ix2 r k := ⟨y 0, y 1, eq_ix2 y⟩
  exact (block_value V c t h1 r k).trans (oblk_read_apply (F := Ideal) c t (Cert.Spec.G16 (V c main_v0)) r k).symm

/-- The output array at the region's end: row b, bin k is the normalised histogram of row b's 32768 patches. -/
theorem final : (dat (F := Ideal) V c).arrAt 1 cfg0.N = Cert.Spec.G16 (V c main_v0) :=
  Pipeline.Dat.arrAt_eq_of_cover (dat (F := Ideal) V c) 1 (Cert.Spec.G16 (V c main_v0))
    (fun t hf => flushed_eq V c t hf) (fun i => out_cover c i)

end Cert.KernelIdeal.R0

end
-- ==== Proof.KernelIdeal.H64.Pay.lean ====
import proofs.«135897_j31885837205965_1_alg».proof.Proof.Gen.KernelIdeal.Skeleton
import proofs.«135897_j31885837205965_1_alg».proof.Proof.LibLayout

noncomputable section

namespace Cert.KernelIdeal.H64

open Cert.KernelIdeal Cert.KernelIdeal.Gen
open Idealize.ShloMosaic Idealize.ShloMosaic.ValueIdx

theorem pay1_apply (j : S8x64.Idx) : (k1_pay1 (F := Ideal)) j = 0 :=
  Cert.Lib.zeros_apply j

theorem pay2_apply (x : Vec Ideal S8x1024x64 .f32) (acc : Vec Ideal S8x64 .f32) (r : Fin 8) (k : Fin 64) :
    k1_pay2 (F := Ideal) x acc (ix2 r k)
      = acc (ix2 r k) + ∑ q : Fin 1024, Cert.Spec.hit (Cert.Spec.key (fun l : Fin 64 => x (ix3 r q l))) (BitVec.ofNat 32 k.val) :=
  Cert.Lib.histStep_apply x acc r k

theorem pay3_apply (acc : Vec Ideal S8x64 .f32) (r : Fin 8) (k : Fin 64) :
    k1_pay3 (F := Ideal) acc (ix2 r k)
      = Ideal.div (Ideal.div (acc (ix2 r k)) (Ideal.ofBits .f32 0x47000000#32))
          (∑ k' : Fin 64, Ideal.div (acc (ix2 r k')) (Ideal.ofBits .f32 0x47000000#32)) :=
  Cert.Lib.div_rowSum_apply _ r k

end Cert.KernelIdeal.H64

end
-- ==== Proof.KernelIdeal.H64.Pieces.lean ====
import proofs.«135897_j31885837205965_1_alg».proof.Proof.KernelIdeal.H64.Runs
import Idealize.ShloMosaic.Lib.Pipeline.Value

noncomputable section

namespace Cert.KernelIdeal.H64

open Cert.KernelIdeal.Gen
open Idealize.ShloMosaic

variable {F : FTy → Type} [FloatOps F]
variable (c : Dev nD) (i : grid1.Coords) (arg2 : Memref sig .tc .vmem S8x1024x64 .f32) (harg2 : arg2.IsWhole)
  (arg3 : Memref sig .tc .vmem S8x64 .f32) (harg3 : arg3.IsWhole) (arg4 : Memref sig .tc .vmem S8x64 .f32) (harg4 : arg4.IsWhole)
  (x0 : Vec F S8x1024x64 .f32) (xs0 : Vec F S8x64 .f32) (hp : cond_0 i) (hn : ¬cond_0 i) (hq : cond_1 i) (hm : ¬cond_1 i)
  {κ : Kind} {sp : Space} (v : View sig κ sp S8x64 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile leaves the update of the reset's zeros by the tile. -/
theorem back_A : v.read (Elt F) (v.writes (Elt F) v.junk (kernelRun_A c i arg2 harg2 arg3 harg3 arg4 harg4 x0 hp hm).1) = k1_pay2 x0 (k1_pay1 (F := F)) := by
  rw [View.read_writes_eq_canon _ _ _ (View.cover_of_tiledL _ S8x64.size (tiled_A c i arg2 harg2 arg3 harg3 arg4 harg4 x0 hp hm))]
  unfold kernelRun_A
  dsimp only
  sl_unfold_words
  rw [View.canon_cons_unit_zero (S := S8x64) hz2, View.readCov_unit_zero (S := S8x64) _ hz2]
  simp only [View.readAt_eq_ld, harg2.read_unread, View.ld_unit_zero (S := S8x1024x64) hz3]

/-- A later tile leaves the update of the accumulator by the tile. -/
theorem back_B : v.read (Elt F) (v.writes (Elt F) v.junk (kernelRun_B c i arg2 harg2 arg3 harg3 arg4 harg4 x0 xs0 hn hm).1) = k1_pay2 x0 xs0 := by
  rw [View.read_writes_eq_canon _ _ _ (View.cover_of_tiledL _ S8x64.size (tiled_B c i arg2 harg2 arg3 harg3 arg4 harg4 x0 xs0 hn hm))]
  unfold kernelRun_B
  dsimp only
  sl_unfold_words
  rw [View.canon_unit_zero hz2]
  simp only [View.readAt_eq_ld, harg2.read_unread, harg4.read_unread, View.ld_unit_zero (S := S8x1024x64) hz3, View.ld_unit_zero (S := S8x64) hz2]

theorem back_C : v.read (Elt F) (v.writes (Elt F) v.junk (kernelRun_C c i arg2 harg2 arg3 harg3 arg4 harg4 x0 xs0 hn hq).2.1) = k1_pay2 x0 xs0 := by
  rw [View.read_writes_eq_canon _ _ _ (View.cover_of_tiledL _ S8x64.size (tiled_C c i arg2 harg2 arg3 harg3 arg4 harg4 x0 xs0 hn hq))]
  unfold kernelRun_C
  dsimp only
  sl_unfold_words
  rw [View.canon_unit_zero hz2]
  simp only [View.readAt_eq_ld, harg2.read_unread, harg4.read_unread, View.ld_unit_zero (S := S8x1024x64) hz3, View.ld_unit_zero (S := S8x64) hz2]

/-- A last tile stores the finalisation of the updated accumulator. -/
theorem out_C : v.read (Elt F) (v.writes (Elt F) v.junk (kernelRun_C c i arg2 harg2 arg3 harg3 arg4 harg4 x0 xs0 hn hq).1)
    = k1_pay3 (k1_pay2 x0 xs0) := by
  rw [View.read_writes_eq_canon _ _ _ (View.cover_of_tiledL _ S8x64.size (tiled_C_1 c i arg2 harg2 arg3 harg3 arg4 harg4 x0 xs0 hn hq))]
  unfold kernelRun_C
  dsimp only
  sl_unfold_words
  rw [View.canon_unit_zero hz2]
  simp only [View.readAt_eq_ld, harg2.read_unread, harg4.read_unread, View.ld_unit_zero (S := S8x1024x64) hz3, View.ld_unit_zero (S := S8x64) hz2, View.readCov_unit_zero (S := S8x64) _ hz2]

end Cert.KernelIdeal.H64

end
-- ==== Proof.KernelIdeal.R1.Blk.lean ====
import proofs.«135897_j31885837205965_1_alg».proof.Proof.KernelIdeal.R1.Base
import Idealize.ShloMosaic.Lib.Pipeline.Value
import Idealize.ShloMosaic.Lib.ValueIdx

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem row_lt (t : Fin cfg1.N) (r : Fin 8) : 8 * (t.val / 32) + r.val < 16 := by
  have := t.isLt; have : cfg1.N = 64 := N_1; omega
theorem patch_lt (t : Fin cfg1.N) (q : Fin 1024) : 1024 * (t.val % 32) + q.val < 32768 := by omega

variable (V : (c : Dev nD) → (b : Ref sig .tc) → Buf (Elt F) ((c : Thread nD τ).loc b))

theorem idx_in : ∀ t : Fin cfg1.N, win1_0.index t (0 : Fin 3) = t.val / 32 ∧ win1_0.index t (1 : Fin 3) = t.val % 32
    ∧ win1_0.index t (2 : Fin 3) = 0 :=
  (by decide +kernel : ∀ t : Fin grid1.N, win1_0.index t (0 : Fin 3) = t.val / 32 ∧ win1_0.index t (1 : Fin 3) = t.val % 32
    ∧ win1_0.index t (2 : Fin 3) = 0)

theorem idx_out : ∀ t : Fin cfg1.N, win1_1.index t (0 : Fin 2) = t.val / 32 ∧ win1_1.index t (1 : Fin 2) = 0 :=
  (by decide +kernel : ∀ t : Fin grid1.N, win1_1.index t (0 : Fin 2) = t.val / 32 ∧ win1_1.index t (1 : Fin 2) = 0)

/-- Entry (r, q, l) of the input block at point `t` is the array's entry (8·(t/32) + r, 1024·(t%32) + q, l). -/
theorem iblk_apply (c : Dev nD) (t : Fin cfg1.N) (r : Fin 8) (q : Fin 1024) (l : Fin 64) :
    (iblk V c 0 t : Vec F S8x1024x64 .f32) (ix3 r q l)
      = (V c main_v2 : S16x32768x64.Idx → Elt F .f32) (ix3 ⟨8 * (t.val / 32) + r.val, row_lt t r⟩ ⟨1024 * (t.val % 32) + q.val, patch_lt t q⟩ l) := by
  obtain ⟨e0, e1, e2⟩ := idx_in t
  refine congrArg (V c main_v2 : S16x32768x64.Idx → Elt F .f32) (funext fun a => Fin.ext ?_)
  match a with
  | ⟨0, _⟩ => show win1_0.index t (0 : Fin 3) * 8 + 1 * r.val = 8 * (t.val / 32) + r.val; omega
  | ⟨1, _⟩ => show win1_0.index t (1 : Fin 3) * 1024 + 1 * q.val = 1024 * (t.val % 32) + q.val; omega
  | ⟨2, _⟩ => show win1_0.index t (2 : Fin 3) * 64 + 1 * l.val = l.val; omega

/-- Entry (r, k) of the output block at point `t`, read off a whole output array `G`, is G's entry (8·(t/32) + r, k). -/
theorem oblk_read_apply (c : Dev nD) (t : Fin cfg1.N) (G : S16x64.Idx → Elt F .f32) (r : Fin 8) (k : Fin 64) :
    (((cfg1.win 1).blk t).view.read (Elt F) (G : Buf (Elt F) ((cfg1.win 1).arr.view.loc (c.tc : Thread nD τ))) : Vec F S8x64 .f32) (ix2 r k)
      = G (ix2 ⟨8 * (t.val / 32) + r.val, row_lt t r⟩ k) := by
  obtain ⟨e0, e1⟩ := idx_out t
  refine congrArg G (funext fun a => Fin.ext ?_)
  match a with
  | ⟨0, _⟩ => show win1_1.index t (0 : Fin 2) * 8 + 1 * r.val = 8 * (t.val / 32) + r.val; omega
  | ⟨1, _⟩ => show win1_1.index t (1 : Fin 2) * 64 + 1 * k.val = k.val; omega

theorem mem_oblk (t : Fin cfg1.N) (i : S16x64.Idx) :
    i ∈ ((cfg1.win 1).blk t).view.set
      ↔ ∀ a : Fin 2, win1_1.index t a * S8x64.size a ≤ (i a).val ∧ (i a).val < win1_1.index t a * S8x64.size a + S8x64.size a := by
  show i ∈ ((View.whole main_v3).slice (win1_1.rect t)).set ↔ _
  rw [View.set_slice_whole, Rect.mem_set_unit]
  exact Iff.rfl

/-- Row 8·b + r of the output lies in the block of the last patch tile of row block b. -/
theorem out_cover (c : Dev nD) (i : ((cfg1.win 1).arr.view.loc (c.tc : Thread nD τ)).2.ty.Idx) :
    ∃ t : Fin cfg1.N, (cfg1.win 1).flush t = true ∧ i ∈ ((cfg1.win 1).blk t).view.set := by
  change S16x64.Idx at i
  have hN : cfg1.N = 64 := N_1
  have h0 : (i 0).val < 16 := (i 0).isLt
  have h1 : (i 1).val < 64 := (i 1).isLt
  let t : Fin cfg1.N := ⟨32 * ((i 0).val / 8) + 31, by omega⟩
  have ht : t.val = 32 * ((i 0).val / 8) + 31 := rfl
  obtain ⟨e0, e1⟩ := idx_out t
  refine ⟨t, (flush1_1 t).mpr (by omega), (mem_oblk t i).2 fun a => ?_⟩
  match a with
  | ⟨0, _⟩ => show win1_1.index t (0 : Fin 2) * 8 ≤ (i 0).val ∧ (i 0).val < win1_1.index t (0 : Fin 2) * 8 + 8; omega
  | ⟨1, _⟩ => show win1_1.index t (1 : Fin 2) * 64 ≤ (i 1).val ∧ (i 1).val < win1_1.index t (1 : Fin 2) * 64 + 64; omega

end Cert.KernelIdeal.R1

end
-- ==== Proof.KernelIdeal.R1.Value.lean ====
import proofs.«135897_j31885837205965_1_alg».proof.Proof.KernelIdeal.R1.Frame
import proofs.«135897_j31885837205965_1_alg».proof.Proof.KernelIdeal.H64.Pay
import proofs.«135897_j31885837205965_1_alg».proof.Proof.KernelIdeal.H64.Pieces
import proofs.«135897_j31885837205965_1_alg».proof.Proof.KernelIdeal.R1.Blk
import proofs.«135897_j31885837205965_1_alg».proof.Proof.LibPartialSum
import proofs.«135897_j31885837205965_1_alg».proof.Proof.Spec
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.R1

open Cert.KernelIdeal.Gen Cert.KernelIdeal.H64
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg1.N)

abbrev xarr : S16x32768x64.Idx → EReal := V c main_v2

/-- For row `r` of point `t`'s batch block and bin `k`: 1 at the patches of that row whose key is `k`, else 0. -/
abbrev term (r : Fin 8) (k : Fin 64) : Fin 32768 → EReal :=
  fun Q => Cert.Spec.hit (Cert.Spec.key fun l : Fin 64 => xarr V c (ix3 ⟨8 * (t.val / 32) + r.val, row_lt t r⟩ Q l)) (BitVec.ofNat 32 k.val)

/-- Every point updates the accumulator by its tile; a first tile updates zeros. -/
theorem accAt_upd : accAt V c t.val
    = k1_pay2 (F := Ideal) (iblk V c 0 t) (if t.val % 32 = 0 then k1_pay1 (F := Ideal) else accPrev V c t) := by
  by_cases h0 : t.val % 32 = 0
  · rw [if_pos h0]; exact (accAt_A V c t h0).trans (back_A ..)
  · rw [if_neg h0]
    by_cases h1 : t.val % 32 = 31
    · exact (accAt_C V c t h1).trans (back_C ..)
    · exact (accAt_B V c t h0 h1).trans (back_B ..)

/-- One more tile: the count over the first 1024·(p + 1) patches from the count over the first 1024·p
    (the block's patch q is the array's patch 1024·p + q). -/
theorem accAt_step (r : Fin 8) (k : Fin 64)
    (ih : (if t.val % 32 = 0 then k1_pay1 (F := Ideal) else accPrev V c t) (ix2 r k) = Cert.Lib.psum (term V c t r k) (1024 * (t.val % 32))) :
    accAt V c t.val (ix2 r k) = Cert.Lib.psum (term V c t r k) (1024 * (t.val % 32 + 1)) := by
  refine (congrFun (accAt_upd V c t) (ix2 r k)).trans ((pay2_apply _ _ r k).trans ?_)
  rw [ih]
  refine ((Cert.Lib.psum_tile (term V c t r k) (t.val % 32) (Nat.mod_lt _ (by decide))).trans
    (congrArg (Cert.Lib.psum (term V c t r k) (1024 * (t.val % 32)) + ·) (Finset.sum_congr rfl fun q _ =>
      congrArg (fun g : Fin 64 → EReal => Cert.Spec.hit (Cert.Spec.key g) (BitVec.ofNat 32 k.val))
        (funext fun l => (iblk_apply V c t r q l).symm)))).symm

/-- After point `t`, row `r`, bin `k` counts the patches below 1024·(t%32 + 1) of array row 8·(t/32) + r with key `k`. -/
theorem accAt_eq (r : Fin 8) (k : Fin 64) : ∀ (n : ℕ) (t : Fin cfg1.N), t.val = n →
    accAt V c t.val (ix2 r k) = Cert.Lib.psum (term V c t r k) (1024 * (t.val % 32 + 1)) := by
  intro n
  induction n with
  | zero =>
    intro t ht
    refine accAt_step V c t r k ?_
    rw [if_pos (by rw [ht]), pay1_apply, show 1024 * (t.val % 32) = 0 by omega, Cert.Lib.psum_zero]
  | succ n ih =>
    intro t ht
    refine accAt_step V c t r k ?_
    by_cases h0 : t.val % 32 = 0
    · rw [if_pos h0, pay1_apply, show 1024 * (t.val % 32) = 0 by omega, Cert.Lib.psum_zero]
    · have hlt : t.val - 1 < cfg1.N := Nat.lt_of_le_of_lt (Nat.sub_le _ _) t.isLt
      rw [if_neg h0]
      refine (ih ⟨t.val - 1, hlt⟩ (by show t.val - 1 = n; omega)).trans ?_
      rw [show term V c ⟨t.val - 1, hlt⟩ r k = term V c t r k from funext fun Q =>
        congrArg (fun R => Cert.Spec.hit (Cert.Spec.key fun l : Fin 64 => xarr V c (ix3 R Q l)) (BitVec.ofNat 32 k.val))
          (Fin.ext (by show 8 * ((t.val - 1) / 32) + r.val = 8 * (t.val / 32) + r.val; omega))]
      exact congrArg (Cert.Lib.psum (term V c t r k)) (by show 1024 * ((t.val - 1) % 32 + 1) = 1024 * (t.val % 32); omega)

/-- At a last tile the counts are over all 32768 patches, and their finalisation is the histogram of array row 8·(t/32) + r. -/
theorem block_value (h1 : t.val % 32 = 31) (r : Fin 8) (k : Fin 64) :
    k1_pay3 (F := Ideal) (accAt V c t.val) (ix2 r k)
      = Cert.Spec.G64 (xarr V c) (ix2 ⟨8 * (t.val / 32) + r.val, row_lt t r⟩ k) := by
  have hacc : ∀ k' : Fin 64, accAt V c t.val (ix2 r k')
      = Cert.Spec.count (fun q l => xarr V c (ix3 ⟨8 * (t.val / 32) + r.val, row_lt t r⟩ q l)) k' := fun k' => by
    refine (accAt_eq V c r k' t.val t rfl).trans ?_
    rw [show 1024 * (t.val % 32 + 1) = 32768 by omega]
    exact Cert.Lib.psum_full _
  refine (pay3_apply (accAt V c t.val) r k).trans ?_
  show _ = Cert.Spec.hist (fun q l => xarr V c (ix3 ⟨8 * (t.val / 32) + r.val, row_lt t r⟩ q l)) k
  unfold Cert.Spec.hist Cert.Spec.prob
  rw [hacc k]
  exact congrArg (Ideal.div _) (Finset.sum_congr rfl fun k' _ => by rw [hacc k'])

/-- A written-back point writes its block of the histogram of the input array. -/
theorem flushed_eq (hf : (cfg1.win 1).flush t = true) :
    (dat (F := Ideal) V c).flushed 1 t = ((cfg1.win 1).blk t).view.read (Elt Ideal) (Cert.Spec.G64 (V c main_v2)) := by
  have h1 : t.val % 32 = 31 := (flush1_1 t).mp hf
  show (cfg1.win 1).cut (grid1.coords t) (outAt V c t) = _
  rw [show outAt V c t = k1_pay3 (F := Ideal) (accAt V c t.val) from
    (dif_pos h1).trans ((out_C ..).trans (congrArg (k1_pay3 (F := Ideal)) ((accAt_C V c t h1).trans (back_C ..)).symm))]
  funext y
  obtain ⟨r, k, rfl⟩ : ∃ (r : Fin 8) (k : Fin 64), y = ix2 r k := ⟨y 0, y 1, eq_ix2 y⟩
  exact (block_value V c t h1 r k).trans (oblk_read_apply (F := Ideal) c t (Cert.Spec.G64 (V c main_v2)) r k).symm

/-- The output array at the region's end: row b, bin k is the normalised histogram of row b's 32768 patches. -/
theorem final : (dat (F := Ideal) V c).arrAt 1 cfg1.N = Cert.Spec.G64 (V c main_v2) :=
  Pipeline.Dat.arrAt_eq_of_cover (dat (F := Ideal) V c) 1 (Cert.Spec.G64 (V c main_v2))
    (fun t hf => flushed_eq V c t hf) (fun i => out_cover c i)

end Cert.KernelIdeal.R1

end
-- ==== Proof.KernelIdeal.R2.Blk.lean ====
import proofs.«135897_j31885837205965_1_alg».proof.Proof.KernelIdeal.R2.Base
import Idealize.ShloMosaic.Lib.Pipeline.Value
import Idealize.ShloMosaic.Lib.ValueIdx

noncomputable section

namespace Cert.KernelIdeal.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem row_lt (t : Fin cfg2.N) (r : Fin 8) : 8 * (t.val / 32) + r.val < 16 := by
  have := t.isLt; have : cfg2.N = 64 := N_2; omega
theorem patch_lt (t : Fin cfg2.N) (q : Fin 1024) : 1024 * (t.val % 32) + q.val < 32768 := by omega

variable (V : (c : Dev nD) → (b : Ref sig .tc) → Buf (Elt F) ((c : Thread nD τ).loc b))

theorem idx_in : ∀ t : Fin cfg2.N, win2_0.index t (0 : Fin 3) = t.val / 32 ∧ win2_0.index t (1 : Fin 3) = t.val % 32
    ∧ win2_0.index t (2 : Fin 3) = 0 :=
  (by decide +kernel : ∀ t : Fin grid2.N, win2_0.index t (0 : Fin 3) = t.val / 32 ∧ win2_0.index t (1 : Fin 3) = t.val % 32
    ∧ win2_0.index t (2 : Fin 3) = 0)

theorem idx_out : ∀ t : Fin cfg2.N, win2_1.index t (0 : Fin 2) = t.val / 32 ∧ win2_1.index t (1 : Fin 2) = 0 :=
  (by decide +kernel : ∀ t : Fin grid2.N, win2_1.index t (0 : Fin 2) = t.val / 32 ∧ win2_1.index t (1 : Fin 2) = 0)

/-- Entry (r, q, l) of the input block at point `t` is the array's entry (8·(t/32) + r, 1024·(t%32) + q, l). -/
theorem iblk_apply (c : Dev nD) (t : Fin cfg2.N) (r : Fin 8) (q : Fin 1024) (l : Fin 16) :
    (iblk V c 0 t : Vec F S8x1024x16 .f32) (ix3 r q l)
      = (V c main_v4 : S16x32768x16.Idx → Elt F .f32) (ix3 ⟨8 * (t.val / 32) + r.val, row_lt t r⟩ ⟨1024 * (t.val % 32) + q.val, patch_lt t q⟩ l) := by
  obtain ⟨e0, e1, e2⟩ := idx_in t
  refine congrArg (V c main_v4 : S16x32768x16.Idx → Elt F .f32) (funext fun a => Fin.ext ?_)
  match a with
  | ⟨0, _⟩ => show win2_0.index t (0 : Fin 3) * 8 + 1 * r.val = 8 * (t.val / 32) + r.val; omega
  | ⟨1, _⟩ => show win2_0.index t (1 : Fin 3) * 1024 + 1 * q.val = 1024 * (t.val % 32) + q.val; omega
  | ⟨2, _⟩ => show win2_0.index t (2 : Fin 3) * 16 + 1 * l.val = l.val; omega

/-- Entry (r, k) of the output block at point `t`, read off a whole output array `G`, is G's entry (8·(t/32) + r, k). -/
theorem oblk_read_apply (c : Dev nD) (t : Fin cfg2.N) (G : S16x16.Idx → Elt F .f32) (r : Fin 8) (k : Fin 16) :
    (((cfg2.win 1).blk t).view.read (Elt F) (G : Buf (Elt F) ((cfg2.win 1).arr.view.loc (c.tc : Thread nD τ))) : Vec F S8x16 .f32) (ix2 r k)
      = G (ix2 ⟨8 * (t.val / 32) + r.val, row_lt t r⟩ k) := by
  obtain ⟨e0, e1⟩ := idx_out t
  refine congrArg G (funext fun a => Fin.ext ?_)
  match a with
  | ⟨0, _⟩ => show win2_1.index t (0 : Fin 2) * 8 + 1 * r.val = 8 * (t.val / 32) + r.val; omega
  | ⟨1, _⟩ => show win2_1.index t (1 : Fin 2) * 16 + 1 * k.val = k.val; omega

theorem mem_oblk (t : Fin cfg2.N) (i : S16x16.Idx) :
    i ∈ ((cfg2.win 1).blk t).view.set
      ↔ ∀ a : Fin 2, win2_1.index t a * S8x16.size a ≤ (i a).val ∧ (i a).val < win2_1.index t a * S8x16.size a + S8x16.size a := by
  show i ∈ ((View.whole main_v5).slice (win2_1.rect t)).set ↔ _
  rw [View.set_slice_whole, Rect.mem_set_unit]
  exact Iff.rfl

/-- Row 8·b + r of the output lies in the block of the last patch tile of row block b. -/
theorem out_cover (c : Dev nD) (i : ((cfg2.win 1).arr.view.loc (c.tc : Thread nD τ)).2.ty.Idx) :
    ∃ t : Fin cfg2.N, (cfg2.win 1).flush t = true ∧ i ∈ ((cfg2.win 1).blk t).view.set := by
  change S16x16.Idx at i
  have hN : cfg2.N = 64 := N_2
  have h0 : (i 0).val < 16 := (i 0).isLt
  have h1 : (i 1).val < 16 := (i 1).isLt
  let t : Fin cfg2.N := ⟨32 * ((i 0).val / 8) + 31, by omega⟩
  have ht : t.val = 32 * ((i 0).val / 8) + 31 := rfl
  obtain ⟨e0, e1⟩ := idx_out t
  refine ⟨t, (flush2_1 t).mpr (by omega), (mem_oblk t i).2 fun a => ?_⟩
  match a with
  | ⟨0, _⟩ => show win2_1.index t (0 : Fin 2) * 8 ≤ (i 0).val ∧ (i 0).val < win2_1.index t (0 : Fin 2) * 8 + 8; omega
  | ⟨1, _⟩ => show win2_1.index t (1 : Fin 2) * 16 ≤ (i 1).val ∧ (i 1).val < win2_1.index t (1 : Fin 2) * 16 + 16; omega

end Cert.KernelIdeal.R2

end
-- ==== Proof.KernelIdeal.R2.Value.lean ====
import proofs.«135897_j31885837205965_1_alg».proof.Proof.KernelIdeal.R2.Frame
import proofs.«135897_j31885837205965_1_alg».proof.Proof.KernelIdeal.H16.Pay
import proofs.«135897_j31885837205965_1_alg».proof.Proof.KernelIdeal.H16.Pieces
import proofs.«135897_j31885837205965_1_alg».proof.Proof.KernelIdeal.R2.Blk
import proofs.«135897_j31885837205965_1_alg».proof.Proof.LibPartialSum
import proofs.«135897_j31885837205965_1_alg».proof.Proof.Spec
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.R2

open Cert.KernelIdeal.Gen Cert.KernelIdeal.H16
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg2.N)

abbrev xarr : S16x32768x16.Idx → EReal := V c main_v4

/-- For row `r` of point `t`'s batch block and bin `k`: 1 at the patches of that row whose key is `k`, else 0. -/
abbrev term (r : Fin 8) (k : Fin 16) : Fin 32768 → EReal :=
  fun Q => Cert.Spec.hit (Cert.Spec.key fun l : Fin 16 => xarr V c (ix3 ⟨8 * (t.val / 32) + r.val, row_lt t r⟩ Q l)) (BitVec.ofNat 32 k.val)

/-- Every point updates the accumulator by its tile; a first tile updates zeros. -/
theorem accAt_upd : accAt V c t.val
    = k0_pay2 (F := Ideal) (iblk V c 0 t) (if t.val % 32 = 0 then k0_pay1 (F := Ideal) else accPrev V c t) := by
  by_cases h0 : t.val % 32 = 0
  · rw [if_pos h0]; exact (accAt_A V c t h0).trans (back_A ..)
  · rw [if_neg h0]
    by_cases h1 : t.val % 32 = 31
    · exact (accAt_C V c t h1).trans (back_C ..)
    · exact (accAt_B V c t h0 h1).trans (back_B ..)

/-- One more tile: the count over the first 1024·(p + 1) patches from the count over the first 1024·p
    (the block's patch q is the array's patch 1024·p + q). -/
theorem accAt_step (r : Fin 8) (k : Fin 16)
    (ih : (if t.val % 32 = 0 then k0_pay1 (F := Ideal) else accPrev V c t) (ix2 r k) = Cert.Lib.psum (term V c t r k) (1024 * (t.val % 32))) :
    accAt V c t.val (ix2 r k) = Cert.Lib.psum (term V c t r k) (1024 * (t.val % 32 + 1)) := by
  refine (congrFun (accAt_upd V c t) (ix2 r k)).trans ((pay2_apply _ _ r k).trans ?_)
  rw [ih]
  refine ((Cert.Lib.psum_tile (term V c t r k) (t.val % 32) (Nat.mod_lt _ (by decide))).trans
    (congrArg (Cert.Lib.psum (term V c t r k) (1024 * (t.val % 32)) + ·) (Finset.sum_congr rfl fun q _ =>
      congrArg (fun g : Fin 16 → EReal => Cert.Spec.hit (Cert.Spec.key g) (BitVec.ofNat 32 k.val))
        (funext fun l => (iblk_apply V c t r q l).symm)))).symm

/-- After point `t`, row `r`, bin `k` counts the patches below 1024·(t%32 + 1) of array row 8·(t/32) + r with key `k`. -/
theorem accAt_eq (r : Fin 8) (k : Fin 16) : ∀ (n : ℕ) (t : Fin cfg2.N), t.val = n →
    accAt V c t.val (ix2 r k) = Cert.Lib.psum (term V c t r k) (1024 * (t.val % 32 + 1)) := by
  intro n
  induction n with
  | zero =>
    intro t ht
    refine accAt_step V c t r k ?_
    rw [if_pos (by rw [ht]), pay1_apply, show 1024 * (t.val % 32) = 0 by omega, Cert.Lib.psum_zero]
  | succ n ih =>
    intro t ht
    refine accAt_step V c t r k ?_
    by_cases h0 : t.val % 32 = 0
    · rw [if_pos h0, pay1_apply, show 1024 * (t.val % 32) = 0 by omega, Cert.Lib.psum_zero]
    · have hlt : t.val - 1 < cfg2.N := Nat.lt_of_le_of_lt (Nat.sub_le _ _) t.isLt
      rw [if_neg h0]
      refine (ih ⟨t.val - 1, hlt⟩ (by show t.val - 1 = n; omega)).trans ?_
      rw [show term V c ⟨t.val - 1, hlt⟩ r k = term V c t r k from funext fun Q =>
        congrArg (fun R => Cert.Spec.hit (Cert.Spec.key fun l : Fin 16 => xarr V c (ix3 R Q l)) (BitVec.ofNat 32 k.val))
          (Fin.ext (by show 8 * ((t.val - 1) / 32) + r.val = 8 * (t.val / 32) + r.val; omega))]
      exact congrArg (Cert.Lib.psum (term V c t r k)) (by show 1024 * ((t.val - 1) % 32 + 1) = 1024 * (t.val % 32); omega)

/-- At a last tile the counts are over all 32768 patches, and their finalisation is the histogram of array row 8·(t/32) + r. -/
theorem block_value (h1 : t.val % 32 = 31) (r : Fin 8) (k : Fin 16) :
    k0_pay3 (F := Ideal) (accAt V c t.val) (ix2 r k)
      = Cert.Spec.G16 (xarr V c) (ix2 ⟨8 * (t.val / 32) + r.val, row_lt t r⟩ k) := by
  have hacc : ∀ k' : Fin 16, accAt V c t.val (ix2 r k')
      = Cert.Spec.count (fun q l => xarr V c (ix3 ⟨8 * (t.val / 32) + r.val, row_lt t r⟩ q l)) k' := fun k' => by
    refine (accAt_eq V c r k' t.val t rfl).trans ?_
    rw [show 1024 * (t.val % 32 + 1) = 32768 by omega]
    exact Cert.Lib.psum_full _
  refine (pay3_apply (accAt V c t.val) r k).trans ?_
  show _ = Cert.Spec.hist (fun q l => xarr V c (ix3 ⟨8 * (t.val / 32) + r.val, row_lt t r⟩ q l)) k
  unfold Cert.Spec.hist Cert.Spec.prob
  rw [hacc k]
  exact congrArg (Ideal.div _) (Finset.sum_congr rfl fun k' _ => by rw [hacc k'])

/-- A written-back point writes its block of the histogram of the input array. -/
theorem flushed_eq (hf : (cfg2.win 1).flush t = true) :
    (dat (F := Ideal) V c).flushed 1 t = ((cfg2.win 1).blk t).view.read (Elt Ideal) (Cert.Spec.G16 (V c main_v4)) := by
  have h1 : t.val % 32 = 31 := (flush2_1 t).mp hf
  show (cfg2.win 1).cut (grid2.coords t) (outAt V c t) = _
  rw [show outAt V c t = k0_pay3 (F := Ideal) (accAt V c t.val) from
    (dif_pos h1).trans ((out_C ..).trans (congrArg (k0_pay3 (F := Ideal)) ((accAt_C V c t h1).trans (back_C ..)).symm))]
  funext y
  obtain ⟨r, k, rfl⟩ : ∃ (r : Fin 8) (k : Fin 16), y = ix2 r k := ⟨y 0, y 1, eq_ix2 y⟩
  exact (block_value V c t h1 r k).trans (oblk_read_apply (F := Ideal) c t (Cert.Spec.G16 (V c main_v4)) r k).symm

/-- The output array at the region's end: row b, bin k is the normalised histogram of row b's 32768 patches. -/
theorem final : (dat (F := Ideal) V c).arrAt 1 cfg2.N = Cert.Spec.G16 (V c main_v4) :=
  Pipeline.Dat.arrAt_eq_of_cover (dat (F := Ideal) V c) 1 (Cert.Spec.G16 (V c main_v4))
    (fun t hf => flushed_eq V c t hf) (fun i => out_cover c i)

end Cert.KernelIdeal.R2

end
-- ==== Proof.KernelIdeal.R3.Blk.lean ====
import proofs.«135897_j31885837205965_1_alg».proof.Proof.KernelIdeal.R3.Base
import Idealize.ShloMosaic.Lib.Pipeline.Value
import Idealize.ShloMosaic.Lib.ValueIdx

noncomputable section

namespace Cert.KernelIdeal.R3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem row_lt (t : Fin cfg3.N) (r : Fin 8) : 8 * (t.val / 32) + r.val < 16 := by
  have := t.isLt; have : cfg3.N = 64 := N_3; omega
theorem patch_lt (t : Fin cfg3.N) (q : Fin 1024) : 1024 * (t.val % 32) + q.val < 32768 := by omega

variable (V : (c : Dev nD) → (b : Ref sig .tc) → Buf (Elt F) ((c : Thread nD τ).loc b))

theorem idx_in : ∀ t : Fin cfg3.N, win3_0.index t (0 : Fin 3) = t.val / 32 ∧ win3_0.index t (1 : Fin 3) = t.val % 32
    ∧ win3_0.index t (2 : Fin 3) = 0 :=
  (by decide +kernel : ∀ t : Fin grid3.N, win3_0.index t (0 : Fin 3) = t.val / 32 ∧ win3_0.index t (1 : Fin 3) = t.val % 32
    ∧ win3_0.index t (2 : Fin 3) = 0)

theorem idx_out : ∀ t : Fin cfg3.N, win3_1.index t (0 : Fin 2) = t.val / 32 ∧ win3_1.index t (1 : Fin 2) = 0 :=
  (by decide +kernel : ∀ t : Fin grid3.N, win3_1.index t (0 : Fin 2) = t.val / 32 ∧ win3_1.index t (1 : Fin 2) = 0)

/-- Entry (r, q, l) of the input block at point `t` is the array's entry (8·(t/32) + r, 1024·(t%32) + q, l). -/
theorem iblk_apply (c : Dev nD) (t : Fin cfg3.N) (r : Fin 8) (q : Fin 1024) (l : Fin 64) :
    (iblk V c 0 t : Vec F S8x1024x64 .f32) (ix3 r q l)
      = (V c main_v6 : S16x32768x64.Idx → Elt F .f32) (ix3 ⟨8 * (t.val / 32) + r.val, row_lt t r⟩ ⟨1024 * (t.val % 32) + q.val, patch_lt t q⟩ l) := by
  obtain ⟨e0, e1, e2⟩ := idx_in t
  refine congrArg (V c main_v6 : S16x32768x64.Idx → Elt F .f32) (funext fun a => Fin.ext ?_)
  match a with
  | ⟨0, _⟩ => show win3_0.index t (0 : Fin 3) * 8 + 1 * r.val = 8 * (t.val / 32) + r.val; omega
  | ⟨1, _⟩ => show win3_0.index t (1 : Fin 3) * 1024 + 1 * q.val = 1024 * (t.val % 32) + q.val; omega
  | ⟨2, _⟩ => show win3_0.index t (2 : Fin 3) * 64 + 1 * l.val = l.val; omega

/-- Entry (r, k) of the output block at point `t`, read off a whole output array `G`, is G's entry (8·(t/32) + r, k). -/
theorem oblk_read_apply (c : Dev nD) (t : Fin cfg3.N) (G : S16x64.Idx → Elt F .f32) (r : Fin 8) (k : Fin 64) :
    (((cfg3.win 1).blk t).view.read (Elt F) (G : Buf (Elt F) ((cfg3.win 1).arr.view.loc (c.tc : Thread nD τ))) : Vec F S8x64 .f32) (ix2 r k)
      = G (ix2 ⟨8 * (t.val / 32) + r.val, row_lt t r⟩ k) := by
  obtain ⟨e0, e1⟩ := idx_out t
  refine congrArg G (funext fun a => Fin.ext ?_)
  match a with
  | ⟨0, _⟩ => show win3_1.index t (0 : Fin 2) * 8 + 1 * r.val = 8 * (t.val / 32) + r.val; omega
  | ⟨1, _⟩ => show win3_1.index t (1 : Fin 2) * 64 + 1 * k.val = k.val; omega

theorem mem_oblk (t : Fin cfg3.N) (i : S16x64.Idx) :
    i ∈ ((cfg3.win 1).blk t).view.set
      ↔ ∀ a : Fin 2, win3_1.index t a * S8x64.size a ≤ (i a).val ∧ (i a).val < win3_1.index t a * S8x64.size a + S8x64.size a := by
  show i ∈ ((View.whole main_v7).slice (win3_1.rect t)).set ↔ _
  rw [View.set_slice_whole, Rect.mem_set_unit]
  exact Iff.rfl

/-- Row 8·b + r of the output lies in the block of the last patch tile of row block b. -/
theorem out_cover (c : Dev nD) (i : ((cfg3.win 1).arr.view.loc (c.tc : Thread nD τ)).2.ty.Idx) :
    ∃ t : Fin cfg3.N, (cfg3.win 1).flush t = true ∧ i ∈ ((cfg3.win 1).blk t).view.set := by
  change S16x64.Idx at i
  have hN : cfg3.N = 64 := N_3
  have h0 : (i 0).val < 16 := (i 0).isLt
  have h1 : (i 1).val < 64 := (i 1).isLt
  let t : Fin cfg3.N := ⟨32 * ((i 0).val / 8) + 31, by omega⟩
  have ht : t.val = 32 * ((i 0).val / 8) + 31 := rfl
  obtain ⟨e0, e1⟩ := idx_out t
  refine ⟨t, (flush3_1 t).mpr (by omega), (mem_oblk t i).2 fun a => ?_⟩
  match a with
  | ⟨0, _⟩ => show win3_1.index t (0 : Fin 2) * 8 ≤ (i 0).val ∧ (i 0).val < win3_1.index t (0 : Fin 2) * 8 + 8; omega
  | ⟨1, _⟩ => show win3_1.index t (1 : Fin 2) * 64 ≤ (i 1).val ∧ (i 1).val < win3_1.index t (1 : Fin 2) * 64 + 64; omega

end Cert.KernelIdeal.R3

end
-- ==== Proof.KernelIdeal.R3.Value.lean ====
import proofs.«135897_j31885837205965_1_alg».proof.Proof.KernelIdeal.R3.Frame
import proofs.«135897_j31885837205965_1_alg».proof.Proof.KernelIdeal.H64.Pay
import proofs.«135897_j31885837205965_1_alg».proof.Proof.KernelIdeal.H64.Pieces
import proofs.«135897_j31885837205965_1_alg».proof.Proof.KernelIdeal.R3.Blk
import proofs.«135897_j31885837205965_1_alg».proof.Proof.LibPartialSum
import proofs.«135897_j31885837205965_1_alg».proof.Proof.Spec
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.R3

open Cert.KernelIdeal.Gen Cert.KernelIdeal.H64
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg3.N)

abbrev xarr : S16x32768x64.Idx → EReal := V c main_v6

/-- For row `r` of point `t`'s batch block and bin `k`: 1 at the patches of that row whose key is `k`, else 0. -/
abbrev term (r : Fin 8) (k : Fin 64) : Fin 32768 → EReal :=
  fun Q => Cert.Spec.hit (Cert.Spec.key fun l : Fin 64 => xarr V c (ix3 ⟨8 * (t.val / 32) + r.val, row_lt t r⟩ Q l)) (BitVec.ofNat 32 k.val)

/-- Every point updates the accumulator by its tile; a first tile updates zeros. -/
theorem accAt_upd : accAt V c t.val
    = k1_pay2 (F := Ideal) (iblk V c 0 t) (if t.val % 32 = 0 then k1_pay1 (F := Ideal) else accPrev V c t) := by
  by_cases h0 : t.val % 32 = 0
  · rw [if_pos h0]; exact (accAt_A V c t h0).trans (back_A ..)
  · rw [if_neg h0]
    by_cases h1 : t.val % 32 = 31
    · exact (accAt_C V c t h1).trans (back_C ..)
    · exact (accAt_B V c t h0 h1).trans (back_B ..)

/-- One more tile: the count over the first 1024·(p + 1) patches from the count over the first 1024·p
    (the block's patch q is the array's patch 1024·p + q). -/
theorem accAt_step (r : Fin 8) (k : Fin 64)
    (ih : (if t.val % 32 = 0 then k1_pay1 (F := Ideal) else accPrev V c t) (ix2 r k) = Cert.Lib.psum (term V c t r k) (1024 * (t.val % 32))) :
    accAt V c t.val (ix2 r k) = Cert.Lib.psum (term V c t r k) (1024 * (t.val % 32 + 1)) := by
  refine (congrFun (accAt_upd V c t) (ix2 r k)).trans ((pay2_apply _ _ r k).trans ?_)
  rw [ih]
  refine ((Cert.Lib.psum_tile (term V c t r k) (t.val % 32) (Nat.mod_lt _ (by decide))).trans
    (congrArg (Cert.Lib.psum (term V c t r k) (1024 * (t.val % 32)) + ·) (Finset.sum_congr rfl fun q _ =>
      congrArg (fun g : Fin 64 → EReal => Cert.Spec.hit (Cert.Spec.key g) (BitVec.ofNat 32 k.val))
        (funext fun l => (iblk_apply V c t r q l).symm)))).symm

/-- After point `t`, row `r`, bin `k` counts the patches below 1024·(t%32 + 1) of array row 8·(t/32) + r with key `k`. -/
theorem accAt_eq (r : Fin 8) (k : Fin 64) : ∀ (n : ℕ) (t : Fin cfg3.N), t.val = n →
    accAt V c t.val (ix2 r k) = Cert.Lib.psum (term V c t r k) (1024 * (t.val % 32 + 1)) := by
  intro n
  induction n with
  | zero =>
    intro t ht
    refine accAt_step V c t r k ?_
    rw [if_pos (by rw [ht]), pay1_apply, show 1024 * (t.val % 32) = 0 by omega, Cert.Lib.psum_zero]
  | succ n ih =>
    intro t ht
    refine accAt_step V c t r k ?_
    by_cases h0 : t.val % 32 = 0
    · rw [if_pos h0, pay1_apply, show 1024 * (t.val % 32) = 0 by omega, Cert.Lib.psum_zero]
    · have hlt : t.val - 1 < cfg3.N := Nat.lt_of_le_of_lt (Nat.sub_le _ _) t.isLt
      rw [if_neg h0]
      refine (ih ⟨t.val - 1, hlt⟩ (by show t.val - 1 = n; omega)).trans ?_
      rw [show term V c ⟨t.val - 1, hlt⟩ r k = term V c t r k from funext fun Q =>
        congrArg (fun R => Cert.Spec.hit (Cert.Spec.key fun l : Fin 64 => xarr V c (ix3 R Q l)) (BitVec.ofNat 32 k.val))
          (Fin.ext (by show 8 * ((t.val - 1) / 32) + r.val = 8 * (t.val / 32) + r.val; omega))]
      exact congrArg (Cert.Lib.psum (term V c t r k)) (by show 1024 * ((t.val - 1) % 32 + 1) = 1024 * (t.val % 32); omega)

/-- At a last tile the counts are over all 32768 patches, and their finalisation is the histogram of array row 8·(t/32) + r. -/
theorem block_value (h1 : t.val % 32 = 31) (r : Fin 8) (k : Fin 64) :
    k1_pay3 (F := Ideal) (accAt V c t.val) (ix2 r k)
      = Cert.Spec.G64 (xarr V c) (ix2 ⟨8 * (t.val / 32) + r.val, row_lt t r⟩ k) := by
  have hacc : ∀ k' : Fin 64, accAt V c t.val (ix2 r k')
      = Cert.Spec.count (fun q l => xarr V c (ix3 ⟨8 * (t.val / 32) + r.val, row_lt t r⟩ q l)) k' := fun k' => by
    refine (accAt_eq V c r k' t.val t rfl).trans ?_
    rw [show 1024 * (t.val % 32 + 1) = 32768 by omega]
    exact Cert.Lib.psum_full _
  refine (pay3_apply (accAt V c t.val) r k).trans ?_
  show _ = Cert.Spec.hist (fun q l => xarr V c (ix3 ⟨8 * (t.val / 32) + r.val, row_lt t r⟩ q l)) k
  unfold Cert.Spec.hist Cert.Spec.prob
  rw [hacc k]
  exact congrArg (Ideal.div _) (Finset.sum_congr rfl fun k' _ => by rw [hacc k'])

/-- A written-back point writes its block of the histogram of the input array. -/
theorem flushed_eq (hf : (cfg3.win 1).flush t = true) :
    (dat (F := Ideal) V c).flushed 1 t = ((cfg3.win 1).blk t).view.read (Elt Ideal) (Cert.Spec.G64 (V c main_v6)) := by
  have h1 : t.val % 32 = 31 := (flush3_1 t).mp hf
  show (cfg3.win 1).cut (grid3.coords t) (outAt V c t) = _
  rw [show outAt V c t = k1_pay3 (F := Ideal) (accAt V c t.val) from
    (dif_pos h1).trans ((out_C ..).trans (congrArg (k1_pay3 (F := Ideal)) ((accAt_C V c t h1).trans (back_C ..)).symm))]
  funext y
  obtain ⟨r, k, rfl⟩ : ∃ (r : Fin 8) (k : Fin 64), y = ix2 r k := ⟨y 0, y 1, eq_ix2 y⟩
  exact (block_value V c t h1 r k).trans (oblk_read_apply (F := Ideal) c t (Cert.Spec.G64 (V c main_v6)) r k).symm

/-- The output array at the region's end: row b, bin k is the normalised histogram of row b's 32768 patches. -/
theorem final : (dat (F := Ideal) V c).arrAt 1 cfg3.N = Cert.Spec.G64 (V c main_v6) :=
  Pipeline.Dat.arrAt_eq_of_cover (dat (F := Ideal) V c) 1 (Cert.Spec.G64 (V c main_v6))
    (fun t hf => flushed_eq V c t hf) (fun i => out_cover c i)

end Cert.KernelIdeal.R3

end
-- ==== Proof.KernelIdeal.Result.lean ====
import proofs.«135897_j31885837205965_1_alg».proof.Proof.KernelIdeal.Main
import proofs.«135897_j31885837205965_1_alg».proof.Proof.KernelIdeal.R0.Value
import proofs.«135897_j31885837205965_1_alg».proof.Proof.KernelIdeal.R1.Value
import proofs.«135897_j31885837205965_1_alg».proof.Proof.KernelIdeal.R2.Value
import proofs.«135897_j31885837205965_1_alg».proof.Proof.KernelIdeal.R3.Value
import Idealize.ShloMosaic.Lib.StableHlo.Run

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A region's final output is the histogram of its input array at entry, and that array is the argument reshaped. -/
theorem res0 : (R0.dat (V1 m) c).arrAt 1 cfg0.N
    = Cert.Spec.G16 (shapeCast S16x32768x16 (m ((c : Thread nD τ).loc main_arg0)) Gen.shapeCasts_S16x32768x4x4_S16x32768x16) :=
  (R0.final (V1 m) c).trans <| congrArg _ <| by
    show StableHlo.after hostOps0 (W0 m c) (Proc.devRef .tc main_v0) = _
    after_results; rfl
theorem res1 : (R1.dat (V3 m) c).arrAt 1 cfg1.N
    = Cert.Spec.G64 (shapeCast S16x32768x64 (m ((c : Thread nD τ).loc main_arg1)) Gen.shapeCasts_S16x32768x8x8_S16x32768x64) :=
  (R1.final (V3 m) c).trans <| congrArg _ <| by
    show StableHlo.after hostOps1 (W2 m c) (Proc.devRef .tc main_v2) = _
    after_results; rw [W2_main_arg1 m c]; rfl
theorem res2 : (R2.dat (V5 m) c).arrAt 1 cfg2.N
    = Cert.Spec.G16 (shapeCast S16x32768x16 (m ((c : Thread nD τ).loc main_arg2)) Gen.shapeCasts_S16x32768x4x4_S16x32768x16) :=
  (R2.final (V5 m) c).trans <| congrArg _ <| by
    show StableHlo.after hostOps2 (W4 m c) (Proc.devRef .tc main_v4) = _
    after_results; rw [W4_main_arg2 m c]; rfl
theorem res3 : (R3.dat (V7 m) c).arrAt 1 cfg3.N
    = Cert.Spec.G64 (shapeCast S16x32768x64 (m ((c : Thread nD τ).loc main_arg3)) Gen.shapeCasts_S16x32768x8x8_S16x32768x64) :=
  (R3.final (V7 m) c).trans <| congrArg _ <| by
    show StableHlo.after hostOps3 (W6 m c) (Proc.devRef .tc main_v6) = _
    after_results; rw [W6_main_arg3 m c]; rfl

end Cert.KernelIdeal.Run

end
-- ==== Proof.RefValue.lean ====
import proofs.«135897_j31885837205965_1_alg».proof.Proof.Gen.ReferenceIdeal.Read
import proofs.«135897_j31885837205965_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.RefValue

open Cert.ReferenceIdeal Cert.ReferenceIdeal.Gen Cert.ReferenceIdeal.Read
open Idealize.ShloMosaic Idealize.ShloMosaic.ValueIdx

theorem coe_sum {ι : Type*} (S : Finset ι) (f : ι → ℝ) :
    ((∑ i ∈ S, f i : ℝ) : EReal) = ∑ i ∈ S, (f i : EReal) :=
  map_sum (⟨⟨Real.toEReal, EReal.coe_zero⟩, EReal.coe_add⟩ : ℝ →+ EReal) f S

/-- Fewer than 2^31 widened bits add up below the sign bit, so the word sum's signed value is the sum of theirs. -/
theorem toInt_fold_addi_bits {ι : Type} (S : Finset ι) (c : ι → BitVec 1) (hS : S.card < 2 ^ 31) :
    ((S.fold IntOp.addi 0#32 (fun q => (c q).setWidth 32)).toInt : ℝ)
      = ∑ q ∈ S, ((((c q).setWidth 32).toInt : ℤ) : ℝ) := by
  classical
  have hb : ∀ q, ((c q).setWidth 32).toNat ≤ 1 := fun q => by
    rw [StableHlo.Predicate.toNat_setWidth_bit]; split <;> omega
  have hle : ∑ q ∈ S, ((c q).setWidth 32).toNat ≤ S.card := by
    simpa using Finset.sum_le_card_nsmul S _ 1 fun q _ => hb q
  have hN := StableHlo.Predicate.toNat_fold_addi S (fun q => (c q).setWidth 32) (by omega)
  have e2 : ∀ q, (((c q).setWidth 32).toInt : ℤ) = (((c q).setWidth 32).toNat : ℤ) := fun q => by
    rw [BitVec.toInt_eq_toNat_cond, if_pos (by have := hb q; omega)]
  rw [BitVec.toInt_eq_toNat_cond, if_pos (by omega), hN]
  simp only [e2]
  push_cast
  rfl

theorem count_eq {P L : ℕ} (hP : P < 2 ^ 31) (x : Fin P → Fin L → EReal) (k : Fin L) :
    ((((Finset.univ : Finset (Fin P)).fold IntOp.addi 0#32
        (fun q => (IntOp.cmpi .eq (Cert.Spec.key (x q)) (BitVec.ofNat 32 k.val)).setWidth 32)).toInt : ℝ) : EReal)
      = Cert.Spec.count x k := by
  rw [toInt_fold_addi_bits _ _ (by rw [Finset.card_univ, Fintype.card_fin]; exact hP), coe_sum]
  rfl

theorem win_lt {m n a b : ℕ} (ha : a < m) (hb : b < n) : a * n + b < m * n :=
  calc a * n + b < a * n + n := by omega
    _ = (a + 1) * n := by rw [Nat.add_mul, Nat.one_mul]
    _ ≤ m * n := Nat.mul_le_mul_right n ha

theorem win_div {n a b : ℕ} (hb : b < n) : (a * n + b) / n = a := by
  rw [Nat.add_comm, Nat.add_mul_div_right _ _ (by omega), Nat.div_eq_of_lt hb, Nat.zero_add]

theorem win_mod {n a b : ℕ} (hb : b < n) : (a * n + b) % n = b := by
  rw [Nat.add_comm, Nat.add_mul_mod_self_right, Nat.mod_eq_of_lt hb]

theorem hostReduceAdd_windows {B P m n L : ℕ} (hL : L = m * n)
    (x : (⟨4, ![B, P, m, n]⟩ : Shape).Idx → EReal)
    (h' : (⟨4, ![B, P, m, n]⟩ : Shape).ReducesTo [2, 3] ⟨2, ![B, P]⟩)
    (hc : (⟨4, ![B, P, m, n]⟩ : Shape).ShapeCasts ⟨3, ![B, P, L]⟩) (init : EReal) (b : Fin B) (q : Fin P) :
    Ideal.hostReduceAdd h' x init (ix2 b q)
      = init + ∑ l : Fin L, shapeCast ⟨3, ![B, P, L]⟩ x hc (ix3 b q l) := by
  subst hL
  unfold Ideal.hostReduceAdd
  refine congrArg (init + ·) ?_
  have hn : ∀ l : Fin (m * n), 0 < n := fun l => Nat.pos_of_ne_zero fun h => by
    subst h; exact absurd l.isLt (Nat.not_lt_zero _)
  have hd : ∀ l : Fin (m * n), l.val / n < m := fun l =>
    Nat.div_lt_of_lt_mul (lt_of_lt_of_eq l.isLt (Nat.mul_comm m n))
  have hcast : ∀ l : Fin (m * n), shapeCast ⟨3, ![B, P, m * n]⟩ x hc (ix3 b q l)
      = x (ix4 b q ⟨l.val / n, hd l⟩ ⟨l.val % n, Nat.mod_lt _ (hn l)⟩) := fun l =>
    shapeCast_apply x hc _ _ (by
      rw [Shape.rowMajor_val_four, Shape.rowMajor_val_three]
      show ((b.val * P + q.val) * m + l.val / n) * n + l.val % n = (b.val * P + q.val) * (m * n) + l.val
      have := Nat.div_add_mod' l.val n
      rw [Nat.add_mul, Nat.mul_assoc, Nat.add_assoc, this])
  simp only [hcast]
  have hdrop : ∀ i : (⟨4, ![B, P, m, n]⟩ : Shape).Idx, h'.drop i = ix2 b q ↔ (i 0).val = b.val ∧ (i 1).val = q.val :=
    fun i => ⟨fun e => ⟨congrArg (fun j => (j 0).val) e, congrArg (fun j => (j 1).val) e⟩,
      fun ⟨e0, e1⟩ => funext fun a => Fin.ext (match a with | ⟨0, _⟩ => e0 | ⟨1, _⟩ => e1)⟩
  refine Finset.sum_nbij' (fun i => (⟨(i 2).val * n + (i 3).val, win_lt (i 2).isLt (i 3).isLt⟩ : Fin (m * n)))
    (fun l => ix4 b q ⟨l.val / n, hd l⟩ ⟨l.val % n, Nat.mod_lt _ (hn l)⟩) ?_ ?_ ?_ ?_ ?_
  · intro i _; exact Finset.mem_univ _
  · intro l _; exact Finset.mem_filter.2 ⟨Finset.mem_univ _, (hdrop _).2 ⟨rfl, rfl⟩⟩
  · intro i hi
    obtain ⟨e0, e1⟩ := (hdrop i).1 (Finset.mem_filter.1 hi).2
    funext a
    apply Fin.ext
    match a with
    | ⟨0, _⟩ => exact e0.symm
    | ⟨1, _⟩ => exact e1.symm
    | ⟨2, _⟩ => exact win_div (i 3).isLt
    | ⟨3, _⟩ => exact win_mod (i 3).isLt
  · intro l _
    exact Fin.ext (Nat.div_add_mod' l.val n)
  · intro i hi
    obtain ⟨e0, e1⟩ := (hdrop i).1 (Finset.mem_filter.1 hi).2
    refine congrArg x (funext fun a => Fin.ext ?_)
    match a with
    | ⟨0, _⟩ => exact e0
    | ⟨1, _⟩ => exact e1
    | ⟨2, _⟩ => exact (win_div (i 3).isLt).symm
    | ⟨3, _⟩ => exact (win_mod (i 3).isLt).symm

theorem v0_at (a : (⟨S16x32768x4x4, .f32⟩ : BufTy).Contents (Elt Ideal)) (h : S16x32768x4x4.ShapeCasts Cert.Spec.A16)
    (b : Fin 16) (q : Fin 32768) :
    val_main_v0 (F := Ideal) a (ix2 b q) = ∑ l : Fin 16, shapeCast Cert.Spec.A16 a h (ix3 b q l) := by
  unfold val_main_v0
  simp only [Host.reduceAdd, Ideal.hostReduceAdd_def]
  refine (hostReduceAdd_windows (B := 16) (P := 32768) (m := 4) (n := 4) (L := 16) rfl a _ h _ b q).trans ?_
  rw [val_main_cst_apply, Ideal.ofBits_def, Ideal.ofBits_zero_f32, zero_add]

theorem v9_at (a : (⟨S16x32768x4x4, .f32⟩ : BufTy).Contents (Elt Ideal)) (h : S16x32768x4x4.ShapeCasts Cert.Spec.A16)
    (b k : Fin 16) :
    val_main_v9 (F := Ideal) a (ix2 b k) = (Finset.univ : Finset (Fin 32768)).fold IntOp.addi 0#32
      (fun q => (IntOp.cmpi .eq (Cert.Spec.key (fun l : Fin 16 => shapeCast Cert.Spec.A16 a h (ix3 b q l)))
        (BitVec.ofNat 32 k.val)).setWidth 32) := by
  unfold val_main_v9
  have hR : S16x32768x16.Reduces [1] S16x16 := by decide
  rw [Host.reduce_eq_fold_single IntOp.addi _ _ reducesTo_S16x32768x16_S16x16_d1 hR h_S_ (ix2 b k)]
  show (Finset.univ : Finset (Fin 32768)).fold IntOp.addi 0#32 _ = _
  refine congrArg (fun f => (Finset.univ : Finset (Fin 32768)).fold IntOp.addi 0#32 f) (funext fun (q : Fin 32768) => ?_)
  show val_main_v8 (F := Ideal) a (hR.lift (ix2 b k) q) = _
  rw [val_main_v8_apply, val_main_v7_apply, val_main_v5_apply, val_main_v3_apply, val_main_v1_apply,
    val_main_v6_apply, val_main_v4_apply, val_main_v2_apply]
  have e1 : idx_main_v3 (idx_main_v5 (hR.lift (ix2 b k) q)) = ix2 b q :=
    funext fun c => Fin.ext (by match c with | ⟨0, _⟩ => rfl | ⟨1, _⟩ => rfl)
  rw [e1, v0_at a h]
  rfl

theorem v12_at (a : (⟨S16x32768x4x4, .f32⟩ : BufTy).Contents (Elt Ideal)) (h : S16x32768x4x4.ShapeCasts Cert.Spec.A16)
    (b k : Fin 16) :
    val_main_v12 (F := Ideal) a (ix2 b k)
      = Cert.Spec.prob (P := 32768) (L := 16) (fun q l => shapeCast Cert.Spec.A16 a h (ix3 b q l)) k := by
  rw [val_main_v12_apply, val_main_v10_apply, val_main_v11_apply, val_main_cst_0_apply, v9_at a h]
  show Ideal.div ((((Finset.univ : Finset (Fin 32768)).fold IntOp.addi 0#32 _).toInt : ℝ) : EReal) _ = _
  rw [count_eq (by norm_num)]
  rfl

theorem ref0 (a : (⟨S16x32768x4x4, .f32⟩ : BufTy).Contents (Elt Ideal)) (h : S16x32768x4x4.ShapeCasts Cert.Spec.A16) :
    val_main_v16 (F := Ideal) a = Cert.Spec.G16 (shapeCast Cert.Spec.A16 a h) := by
  funext j
  obtain ⟨b, k, rfl⟩ : ∃ (b k : Fin 16), j = ix2 b k := ⟨j 0, j 1, eq_ix2 j⟩
  rw [val_main_v16_apply, val_main_v15_apply, val_main_v14_apply, val_main_v13_apply, val_main_cst_1_apply]
  have e : ∀ k' : Fin 16, idx_main_v13 (idx_main_v14 (idx_main_v15 (ix2 b k))) k' = ix2 b k' := fun k' =>
    funext fun c => Fin.ext (by match c with | ⟨0, _⟩ => rfl | ⟨1, _⟩ => rfl)
  simp only [e, v12_at a h]
  rw [Ideal.hostDivf_def, Ideal.ofBits_def, Ideal.ofBits_zero_f32, zero_add]
  rfl

theorem ref2 (a : (⟨S16x32768x4x4, .f32⟩ : BufTy).Contents (Elt Ideal)) (h : S16x32768x4x4.ShapeCasts Cert.Spec.A16) :
    val_main_v50 (F := Ideal) a = Cert.Spec.G16 (shapeCast Cert.Spec.A16 a h) :=
  (rfl : val_main_v50 (F := Ideal) a = val_main_v16 (F := Ideal) a).trans (ref0 a h)

theorem v17_at (a : (⟨S16x32768x8x8, .f32⟩ : BufTy).Contents (Elt Ideal)) (h : S16x32768x8x8.ShapeCasts Cert.Spec.A64)
    (b : Fin 16) (q : Fin 32768) :
    val_main_v17 (F := Ideal) a (ix2 b q) = ∑ l : Fin 64, shapeCast Cert.Spec.A64 a h (ix3 b q l) := by
  unfold val_main_v17
  simp only [Host.reduceAdd, Ideal.hostReduceAdd_def]
  refine (hostReduceAdd_windows (B := 16) (P := 32768) (m := 8) (n := 8) (L := 64) rfl a _ h _ b q).trans ?_
  rw [val_main_cst_2_apply, Ideal.ofBits_def, Ideal.ofBits_zero_f32, zero_add]

theorem v26_at (a : (⟨S16x32768x8x8, .f32⟩ : BufTy).Contents (Elt Ideal)) (h : S16x32768x8x8.ShapeCasts Cert.Spec.A64)
    (b : Fin 16) (k : Fin 64) :
    val_main_v26 (F := Ideal) a (ix2 b k) = (Finset.univ : Finset (Fin 32768)).fold IntOp.addi 0#32
      (fun q => (IntOp.cmpi .eq (Cert.Spec.key (fun l : Fin 64 => shapeCast Cert.Spec.A64 a h (ix3 b q l)))
        (BitVec.ofNat 32 k.val)).setWidth 32) := by
  unfold val_main_v26
  have hR : S16x32768x64.Reduces [1] S16x64 := by decide
  rw [Host.reduce_eq_fold_single IntOp.addi _ _ reducesTo_S16x32768x64_S16x64_d1 hR h_S_ (ix2 b k)]
  show (Finset.univ : Finset (Fin 32768)).fold IntOp.addi 0#32 _ = _
  refine congrArg (fun f => (Finset.univ : Finset (Fin 32768)).fold IntOp.addi 0#32 f) (funext fun (q : Fin 32768) => ?_)
  show val_main_v25 (F := Ideal) a (hR.lift (ix2 b k) q) = _
  rw [val_main_v25_apply, val_main_v24_apply, val_main_v22_apply, val_main_v20_apply, val_main_v18_apply,
    val_main_v23_apply, val_main_v21_apply, val_main_v19_apply]
  have e1 : idx_main_v20 (idx_main_v22 (hR.lift (ix2 b k) q)) = ix2 b q :=
    funext fun c => Fin.ext (by match c with | ⟨0, _⟩ => rfl | ⟨1, _⟩ => rfl)
  rw [e1, v17_at a h]
  rfl

theorem v29_at (a : (⟨S16x32768x8x8, .f32⟩ : BufTy).Contents (Elt Ideal)) (h : S16x32768x8x8.ShapeCasts Cert.Spec.A64)
    (b : Fin 16) (k : Fin 64) :
    val_main_v29 (F := Ideal) a (ix2 b k)
      = Cert.Spec.prob (P := 32768) (L := 64) (fun q l => shapeCast Cert.Spec.A64 a h (ix3 b q l)) k := by
  rw [val_main_v29_apply, val_main_v27_apply, val_main_v28_apply, val_main_cst_4_apply, v26_at a h]
  show Ideal.div ((((Finset.univ : Finset (Fin 32768)).fold IntOp.addi 0#32 _).toInt : ℝ) : EReal) _ = _
  rw [count_eq (by norm_num)]
  rfl

theorem ref1 (a : (⟨S16x32768x8x8, .f32⟩ : BufTy).Contents (Elt Ideal)) (h : S16x32768x8x8.ShapeCasts Cert.Spec.A64) :
    val_main_v33 (F := Ideal) a = Cert.Spec.G64 (shapeCast Cert.Spec.A64 a h) := by
  funext j
  obtain ⟨b, k, rfl⟩ : ∃ (b : Fin 16) (k : Fin 64), j = ix2 b k := ⟨j 0, j 1, eq_ix2 j⟩
  rw [val_main_v33_apply, val_main_v32_apply, val_main_v31_apply, val_main_v30_apply, val_main_cst_5_apply]
  have e : ∀ k' : Fin 64, idx_main_v30 (idx_main_v31 (idx_main_v32 (ix2 b k))) k' = ix2 b k' := fun k' =>
    funext fun c => Fin.ext (by match c with | ⟨0, _⟩ => rfl | ⟨1, _⟩ => rfl)
  simp only [e, v29_at a h]
  rw [Ideal.hostDivf_def, Ideal.ofBits_def, Ideal.ofBits_zero_f32, zero_add]
  rfl

theorem ref3 (a : (⟨S16x32768x8x8, .f32⟩ : BufTy).Contents (Elt Ideal)) (h : S16x32768x8x8.ShapeCasts Cert.Spec.A64) :
    val_main_v67 (F := Ideal) a = Cert.Spec.G64 (shapeCast Cert.Spec.A64 a h) :=
  (rfl : val_main_v67 (F := Ideal) a = val_main_v33 (F := Ideal) a).trans (ref1 a h)

end Cert.RefValue

end
-- ==== Proof.lean ====
/- The kernel streams each input through 32 tiles a batch block, adding each tile's count of patches per key to a
   histogram that the last tile normalises; the reference computes the same histogram of the whole input. -/
import proofs.«135897_j31885837205965_1_alg».proof.Defs
import proofs.«135897_j31885837205965_1_alg».proof.Proof.Gen.Pre_finite_inputs
import proofs.«135897_j31885837205965_1_alg».proof.Proof.Kernel.Main
import proofs.«135897_j31885837205965_1_alg».proof.Proof.KernelIdeal.Result
import proofs.«135897_j31885837205965_1_alg».proof.Proof.RefValue

noncomputable section

namespace Cert.Proof

open Idealize.ShloMosaic Idealize.ShloMosaic.TcCoe Idealize.SL.Sem
open Cert.ReferenceIdeal.Read Cert.KernelIdeal.Run

/-- From memories that agree on the arguments, each result of either program is the histogram of its argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, run_results m ρ, (θ_run Cert.ReferenceIdeal.defs _ _).mono (fun _ h c => ?_)
    (Cert.ReferenceIdeal.Value.run (F := Ideal) m' ρ')⟩
  obtain ⟨h0, h1, h2, h3, ha⟩ := h c
  obtain ⟨a0, a1, a2, a3⟩ := hagree c
  refine ⟨h0.trans ?_, h1.trans ?_, h2.trans ?_, h3.trans ?_, ha⟩
  · rw [a0]; exact ((val_main_v16_eq _).trans (Cert.RefValue.ref0 _ _)).trans (res0 m c).symm
  · rw [a1]; exact ((val_main_v33_eq _).trans (Cert.RefValue.ref1 _ _)).trans (res1 m c).symm
  · rw [a2]; exact ((val_main_v50_eq _).trans (Cert.RefValue.ref2 _ _)).trans (res2 m c).symm
  · rw [a3]; exact ((val_main_v67_eq _).trans (Cert.RefValue.ref3 _ _)).trans (res3 m c).symm

/-- Each program runs to the end with its arguments as launched; the reference's run is its host operations' alone. -/
theorem claim : Cert.Claim :=
  ⟨Cert.Kernel.Gen.facts, Cert.KernelIdeal.Gen.facts, Cert.ReferenceIdeal.Gen.facts, Cert.Pre_finite_inputs.Gen.facts,
    fun m ρ _ => Cert.Kernel.Run.frame (F := Bits) m ρ,
    fun m ρ _ => frame (F := Ideal) m ρ,
    fun m ρ _ => (θ_run Cert.ReferenceIdeal.defs _ _).mono (fun _ h c => (h c).2.2.2.2)
      (Cert.ReferenceIdeal.Value.run (F := Ideal) m ρ),
    trivial, algebraic⟩

end Cert.Proof

end
